-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S5888x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S3x128x128 .f32) (main_arg10 : FVec F S3x128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S128x128 .f32) (main_arg12 : FVec F S128 .f32) (main_arg13 : FVec F S128 .f32) (main_arg14 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S128x128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100096x128 : Shape := ⟨2, ![100096, 128]⟩
abbrev S1x128x128 : Shape := ⟨3, ![1, 128, 128]⟩
abbrev S1x128 : Shape := ⟨2, ![1, 128]⟩
abbrev S5888x128 : Shape := ⟨2, ![5888, 128]⟩
abbrev S1x100000 : Shape := ⟨2, ![1, 100000]⟩
abbrev S1x100096 : Shape := ⟨2, ![1, 100096]⟩
abbrev S256x128 : Shape := ⟨2, ![256, 128]⟩
abbrev S1x5888 : Shape := ⟨2, ![1, 5888]⟩
abbrev S1x256 : Shape := ⟨2, ![1, 256]⟩
abbrev S5888x1 : Shape := ⟨2, ![5888, 1]⟩
abbrev S5888x256 : Shape := ⟨2, ![5888, 256]⟩
abbrev S256 : Shape := ⟨1, ![256]⟩
abbrev S256x1 : Shape := ⟨2, ![256, 1]⟩

abbrev nBuf : Space → Nat
  | .hbm => 159
  | .vmem => 53
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S128x128, .f32⟩
  | 12 => ⟨S128, .f32⟩
  | 13 => ⟨S128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .i32⟩
  | 33 => ⟨S_, .f32⟩
  | 34 => ⟨S100096x128, .f32⟩
  | 35 => ⟨S_, .i32⟩
  | 36 => ⟨S_, .f32⟩
  | 37 => ⟨S100096x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S100096x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .i32⟩
  | 76 => ⟨S_, .f32⟩
  | 77 => ⟨S100096x128, .f32⟩
  | 78 => ⟨S_, .i32⟩
  | 79 => ⟨S_, .f32⟩
  | 80 => ⟨S100096x128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S100096x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S_, .i32⟩
  | 119 => ⟨S_, .f32⟩
  | 120 => ⟨S100096x128, .f32⟩
  | 121 => ⟨S_, .i32⟩
  | 122 => ⟨S_, .f32⟩
  | 123 => ⟨S100096x128, .f32⟩
  | 124 => ⟨S1x128x128, .f32⟩
  | 125 => ⟨S128x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S100096x128, .f32⟩
  | 19 => ⟨S100000x128, .f32⟩
  | 20 => ⟨S1x100000, .i32⟩
  | 21 => ⟨S_, .i32⟩
  | 22 => ⟨S_, .i32⟩
  | 23 => ⟨S1x100096, .i32⟩
  | 24 => ⟨S_, .i32⟩
  | 25 => ⟨S_, .f32⟩
  | 26 => ⟨S100096x128, .f32⟩
  | 27 => ⟨S1x128, .f32⟩
  | 28 => ⟨S1x128, .f32⟩
  | 29 => ⟨S1x128, .f32⟩
  | 30 => ⟨S256x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5888x128, .f32⟩
  | .local _ .vmem, ⟨1, _⟩ => ⟨S5888x128, .f32⟩
  | .local _ .vmem, ⟨2, _⟩ => ⟨S5888x128, .f32⟩
  | .local _ .vmem, ⟨3, _⟩ => ⟨S5888x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5888x128, .f32⟩
  | .local _ .vmem, ⟨13, _⟩ => ⟨S5888x128, .f32⟩
  | .local _ .vmem, ⟨14, _⟩ => ⟨S5888x128, .f32⟩
  | .local _ .vmem, ⟨15, _⟩ => ⟨S5888x128, .f32⟩
  | .local _ .vmem, ⟨16, _⟩ => ⟨S5888x128, .f32⟩
  | .local _ .vmem, ⟨17, _⟩ => ⟨S5888x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5888x128, .f32⟩
  | .local _ .vmem, ⟨27, _⟩ => ⟨S5888x128, .f32⟩
  | .local _ .vmem, ⟨28, _⟩ => ⟨S5888x128, .f32⟩
  | .local _ .vmem, ⟨29, _⟩ => ⟨S5888x128, .f32⟩
  | .local _ .vmem, ⟨30, _⟩ => ⟨S5888x128, .f32⟩
  | .local _ .vmem, ⟨31, _⟩ => ⟨S5888x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5888x128, .f32⟩
  | .local _ .vmem, ⟨41, _⟩ => ⟨S5888x128, .f32⟩
  | .local _ .vmem, ⟨42, _⟩ => ⟨S5888x128, .f32⟩
  | .local _ .vmem, ⟨43, _⟩ => ⟨S5888x128, .f32⟩
  | .local _ .vmem, ⟨44, _⟩ => ⟨S1x5888, .i32⟩
  | .local _ .vmem, ⟨45, _⟩ => ⟨S1x5888, .i32⟩
  | .local _ .vmem, ⟨46, _⟩ => ⟨S128x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S256x128, .f32⟩
  | .local _ .vmem, ⟨51, _⟩ => ⟨S256x128, .f32⟩
  | .local _ .vmem, ⟨52, _⟩ => ⟨S1x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_call0_v0 : Ref sig .tc := ⟨.hbm, 33, rfl⟩
abbrev main_v14 : Ref sig .tc := ⟨.hbm, 34, rfl⟩
abbrev main_c_2 : Ref sig .tc := ⟨.hbm, 35, rfl⟩
abbrev main_call1_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_3 : Ref sig .tc := ⟨.hbm, 62, rfl⟩
abbrev main_v40 : Ref sig .tc := ⟨.hbm, 63, rfl⟩
abbrev main_v41 : Ref sig .tc := ⟨.hbm, 64, rfl⟩
abbrev main_c_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_6 : Ref sig .tc := ⟨.hbm, 75, rfl⟩
abbrev main_call2_v0 : Ref sig .tc := ⟨.hbm, 76, rfl⟩
abbrev main_v50 : Ref sig .tc := ⟨.hbm, 77, rfl⟩
abbrev main_c_7 : Ref sig .tc := ⟨.hbm, 78, rfl⟩
abbrev main_call3_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_8 : Ref sig .tc := ⟨.hbm, 105, rfl⟩
abbrev main_v76 : Ref sig .tc := ⟨.hbm, 106, rfl⟩
abbrev main_v77 : Ref sig .tc := ⟨.hbm, 107, rfl⟩
abbrev main_c_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_11 : Ref sig .tc := ⟨.hbm, 118, rfl⟩
abbrev main_call4_v0 : Ref sig .tc := ⟨.hbm, 119, rfl⟩
abbrev main_v86 : Ref sig .tc := ⟨.hbm, 120, rfl⟩
abbrev main_c_12 : Ref sig .tc := ⟨.hbm, 121, rfl⟩
abbrev main_call5_v0 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_13 : Ref sig .tc := ⟨.hbm, 149, rfl⟩
abbrev main_call6_v0 : Ref sig .tc := ⟨.hbm, 150, rfl⟩
abbrev main_v113 : Ref sig .tc := ⟨.hbm, 151, rfl⟩
abbrev main_c_14 : Ref sig .tc := ⟨.hbm, 152, rfl⟩
abbrev main_call7_v0 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_scratch0 : Ref sig .tc := ⟨.vmem, 51, rfl⟩
abbrev cc3_scratch1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5888x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5888x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5888x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5888x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5888x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5888x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5888x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5888x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5888x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![17], ![false]⟩

def k3_cond2 (i : grid3.Coords) : BitVec 1 :=
  let arg0 : BitVec 32 := BitVec.ofNat 32 (i 0).val
  let c16_i32 : BitVec 32 := 16#32
  let v29 : BitVec 1 := Scalar.cmpi .eq arg0 c16_i32
  let v30 : BitVec 32 := Scalar.extui v29
  let c0_i32_13 : BitVec 32 := 0#32
  let v31 : BitVec 1 := Scalar.cmpi .ne v30 c0_i32_13
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5888x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x5888 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  pads_S100000x128_S100096x128_0960_000 : S100000x128.Pads (![0, 0] : Fin 2 → Nat) ![96, 0] ![0, 0] S100096x128
  h_S_ : 0 < S_.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5888x128_S5888x128_0_0 : ∀ a, (![0, 0] : Fin 2 → Nat) a + S5888x128.size a ≤ S5888x128.size a
  h_S5888x128 : 0 < S5888x128.numel
  shapeCasts_S5888x128_S5888x128 : S5888x128.ShapeCasts S5888x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5888x128 : S1x128.Broadcasts S5888x128
  slices_S100096x128_S100000x128_0_0 : S100096x128.Slices ![0, 0] S100000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S1x100000 : S100000.ShapeCasts S1x100000
  pads_S1x100000_S1x100096_000_0960 : S1x100000.Pads (![0, 0] : Fin 2 → Nat) ![0, 96] ![0, 0] S1x100096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  transposes_S1x5888_p1_0_S5888x1 : S1x5888.Transposes [1, 0] S5888x1
  iota_S5888x256_d1_w32 : S5888x256.Iotas .tc 32 [1]
  broadcasts_S5888x1_S5888x256 : S5888x1.Broadcasts S5888x256
  natLt_1_32 : 1 < 32
  reduces_S5888x256_S256 : S5888x256.Reduces [0] S256
  shapeCasts_S256_S1x256 : S256.ShapeCasts S1x256
  transposes_S1x256_p1_0_S256x1 : S1x256.Transposes [1, 0] S256x1
  broadcasts_S256x1_S256x128 : S256x1.Broadcasts S256x128
  broadcasts_S1x128_S256x128 : S1x128.Broadcasts S256x128
  reduces_S256x128_S256 : S256x128.Reduces [1] S256
  shapeCasts_S256_S256x1 : S256.ShapeCasts S256x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5888x128_S128x128_S5888x128_1_0_0_1_n_n_wf : DotDims.WF S5888x128 S128x128 S5888x128 [1] [0] [0] [1] [] []
  dot_S5888x256_S5888x128_S256x128_0_0_1_1_n_n_wf : DotDims.WF S5888x256 S5888x128 S256x128 [0] [0] [1] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5888x128.size a ≤ S100096x128.size a
  hwx0_0 : ∀ i : grid0.Coords, EltTy.bits .f32 = 32 ∨ (Rect.block (s := S100096x128) S5888x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5888x128.size a ≤ S100096x128.size a
  hwx0_1 : ∀ i : grid0.Coords, EltTy.bits .f32 = 32 ∨ (Rect.block (s := S100096x128) S5888x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5888x128.size a ≤ S100096x128.size a
  hwx0_10 : ∀ i : grid0.Coords, EltTy.bits .f32 = 32 ∨ (Rect.block (s := S100096x128) S5888x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5888x128.size a ≤ S100096x128.size a
  hwx1_0 : ∀ i : grid1.Coords, EltTy.bits .f32 = 32 ∨ (Rect.block (s := S100096x128) S5888x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5888x128.size a ≤ S100096x128.size a
  hwx1_1 : ∀ i : grid1.Coords, EltTy.bits .f32 = 32 ∨ (Rect.block (s := S100096x128) S5888x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5888x128.size a ≤ S100096x128.size a
  hwx1_10 : ∀ i : grid1.Coords, EltTy.bits .f32 = 32 ∨ (Rect.block (s := S100096x128) S5888x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5888x128.size a ≤ S100096x128.size a
  hwx2_0 : ∀ i : grid2.Coords, EltTy.bits .f32 = 32 ∨ (Rect.block (s := S100096x128) S5888x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5888x128.size a ≤ S100096x128.size a
  hwx2_1 : ∀ i : grid2.Coords, EltTy.bits .f32 = 32 ∨ (Rect.block (s := S100096x128) S5888x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5888x128.size a ≤ S100096x128.size a
  hwx2_10 : ∀ i : grid2.Coords, EltTy.bits .f32 = 32 ∨ (Rect.block (s := S100096x128) S5888x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5888x128.size a ≤ S100096x128.size a
  hwx3_0 : ∀ i : grid3.Coords, EltTy.bits .f32 = 32 ∨ (Rect.block (s := S100096x128) S5888x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x5888.size a ≤ S1x100096.size a
  hwx3_1 : ∀ i : grid3.Coords, EltTy.bits .i32 = 32 ∨ (Rect.block (s := S1x100096) S1x5888.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x128.size a ≤ S256x128.size a
  hwx3_6 : ∀ i : grid3.Coords, EltTy.bits .f32 = 32 ∨ (Rect.block (s := S256x128) S256x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5888x128_S128x128_S5888x128_1_0_0_1_n_n : DotDims S5888x128 S128x128 S5888x128 where
  lhsContracting := [1]
  rhsContracting := [0]
  lhsNonContracting := [0]
  rhsNonContracting := [1]
  lhsBatch := []
  rhsBatch := []
  wf := dot_S5888x128_S128x128_S5888x128_1_0_0_1_n_n_wf
def dot_S5888x256_S5888x128_S256x128_0_0_1_1_n_n : DotDims S5888x256 S5888x128 S256x128 where
  lhsContracting := [0]
  rhsContracting := [0]
  lhsNonContracting := [1]
  rhsNonContracting := [1]
  lhsBatch := []
  rhsBatch := []
  wf := dot_S5888x256_S5888x128_S256x128_0_0_1_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v14) S5888x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5888x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S5888x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v50) S5888x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5888x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v73) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v74) S5888x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v86) S5888x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5888x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v95) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v101) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v104) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v106) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v109) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v110) S5888x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v114) S5888x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S1x5888.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v115) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v116) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v118) S256x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S256 : Shape := ⟨1, ![256]⟩
abbrev S100000x1 : Shape := ⟨2, ![100000, 1]⟩
abbrev S256x128 : Shape := ⟨2, ![256, 128]⟩
abbrev S256x1 : Shape := ⟨2, ![256, 1]⟩

abbrev nBuf : Space → Nat
  | .hbm => 263
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S128x128, .f32⟩
  | 12 => ⟨S128, .f32⟩
  | 13 => ⟨S128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S1x128x128, .f32⟩
  | 34 => ⟨S128x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S1x128x128, .f32⟩
  | 26 => ⟨S128x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000, .f32⟩
  | 73 => ⟨S_, .f32⟩
  | 74 => ⟨S256, .f32⟩
  | 75 => ⟨S100000x1, .i32⟩
  | 76 => ⟨S256, .f32⟩
  | 77 => ⟨S_, .f32⟩
  | 78 => ⟨S256x128, .f32⟩
  | 79 => ⟨S100000x1, .i32⟩
  | 80 => ⟨S256x128, .f32⟩
  | 81 => ⟨S_, .f32⟩
  | 82 => ⟨S256, .f32⟩
  | 83 => ⟨S256, .f32⟩
  | 84 => ⟨S256x1, .f32⟩
  | 85 => ⟨S256x128, .f32⟩
  | 86 => ⟨S256x128, .f32⟩
  | 87 => ⟨S256x128, .f32⟩
  | 88 => ⟨S1x128, .f32⟩
  | 89 => ⟨S256x128, .f32⟩
  | 90 => ⟨S256x128, .f32⟩
  | 91 => ⟨S_, .f32⟩
  | 92 => ⟨S256, .f32⟩
  | 93 => ⟨S256x1, .f32⟩
  | 94 => ⟨S_, .f32⟩
  | 95 => ⟨S256x1, .f32⟩
  | 96 => ⟨S256x1, .f32⟩
  | 97 => ⟨S_, .i32⟩
  | 98 => ⟨S_, .f32⟩
  | 99 => ⟨S256, .f32⟩
  | 100 => ⟨S256x1, .f32⟩
  | 101 => ⟨S_, .f32⟩
  | 102 => ⟨S256x1, .f32⟩
  | 103 => ⟨S256x1, .f32⟩
  | 104 => ⟨S256x128, .f32⟩
  | 105 => ⟨S256x128, .f32⟩
  | 106 => ⟨S256x128, .f32⟩
  | 107 => ⟨S_, .f32⟩
  | 108 => ⟨S_, .f32⟩
  | 109 => ⟨S_, .f32⟩
  | 110 => ⟨S_, .f32⟩
  | 111 => ⟨S256, .f32⟩
  | 112 => ⟨S256x1, .f32⟩
  | 113 => ⟨S256x1, .f32⟩
  | 114 => ⟨S256x1, .f32⟩
  | 115 => ⟨S_, .f32⟩
  | 116 => ⟨S_, .i1⟩
  | 117 => ⟨S_, .f32⟩
  | 118 => ⟨S_, .f32⟩
  | 119 => ⟨S256x1, .f32⟩
  | 120 => ⟨S256x1, .f32⟩
  | 121 => ⟨S256x128, .f32⟩
  | 122 => ⟨S256x128, .f32⟩
  | 123 => ⟨S_, .f32⟩
  | 124 => ⟨S256x1, .f32⟩
  | 125 => ⟨S256x1, .f32⟩
  | 126 => ⟨S256x1, .f32⟩
  | 127 => ⟨S256x128, .f32⟩
  | _ => ⟨S100000x128, .f32⟩

abbrev hbmTy0_2 (i : Nat) : BufTy := match i % 128 with
  | 0 => ⟨S256x128, .f32⟩
  | 1 => ⟨S1x128, .f32⟩
  | 2 => ⟨S256x128, .f32⟩
  | 3 => ⟨S256x128, .f32⟩
  | 4 => ⟨S1x128, .f32⟩
  | 5 => ⟨S256x128, .f32⟩
  | 6 => ⟨S256x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_c_2 : Ref sig .tc := ⟨.hbm, 79, rfl⟩
abbrev main_v56 : Ref sig .tc := ⟨.hbm, 80, rfl⟩
abbrev main_v57 : Ref sig .tc := ⟨.hbm, 81, rfl⟩
abbrev main_c_3 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_5 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call2_cst : Ref sig .tc := ⟨.hbm, 125, rfl⟩
abbrev main_call2_v0 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call3_cst : Ref sig .tc := ⟨.hbm, 136, rfl⟩
abbrev main_call3_v0 : Ref sig .tc := ⟨.hbm, 137, rfl⟩
abbrev main_v107 : Ref sig .tc := ⟨.hbm, 138, rfl⟩
abbrev main_c_6 : Ref sig .tc := ⟨.hbm, 139, rfl⟩
abbrev main_v108 : Ref sig .tc := ⟨.hbm, 140, rfl⟩
abbrev main_v109 : Ref sig .tc := ⟨.hbm, 141, rfl⟩
abbrev main_c_7 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_8 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_9 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_call4_cst : Ref sig .tc := ⟨.hbm, 185, rfl⟩
abbrev main_call4_v0 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_call5_cst : Ref sig .tc := ⟨.hbm, 196, rfl⟩
abbrev main_call5_v0 : Ref sig .tc := ⟨.hbm, 197, rfl⟩
abbrev main_v159 : Ref sig .tc := ⟨.hbm, 198, rfl⟩
abbrev main_cst_10 : Ref sig .tc := ⟨.hbm, 199, rfl⟩
abbrev main_v160 : Ref sig .tc := ⟨.hbm, 200, rfl⟩
abbrev main_cst_11 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_12 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_13 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_14 : Ref sig .tc := ⟨.hbm, 219, rfl⟩
abbrev main_v176 : Ref sig .tc := ⟨.hbm, 220, rfl⟩
abbrev main_v177 : Ref sig .tc := ⟨.hbm, 221, rfl⟩
abbrev main_cst_15 : Ref sig .tc := ⟨.hbm, 222, rfl⟩
abbrev main_v178 : Ref sig .tc := ⟨.hbm, 223, rfl⟩
abbrev main_v179 : Ref sig .tc := ⟨.hbm, 224, rfl⟩
abbrev main_c_16 : Ref sig .tc := ⟨.hbm, 225, rfl⟩
abbrev main_call6_cst : Ref sig .tc := ⟨.hbm, 226, rfl⟩
abbrev main_call6_v0 : Ref sig .tc := ⟨.hbm, 227, rfl⟩
abbrev main_call6_v1 : Ref sig .tc := ⟨.hbm, 228, rfl⟩
abbrev main_call6_cst_0 : Ref sig .tc := ⟨.hbm, 229, rfl⟩
abbrev main_call6_v2 : Ref sig .tc := ⟨.hbm, 230, rfl⟩
abbrev main_call6_v3 : Ref sig .tc := ⟨.hbm, 231, rfl⟩
abbrev main_call6_v4 : Ref sig .tc := ⟨.hbm, 232, rfl⟩
abbrev main_call6_v5 : Ref sig .tc := ⟨.hbm, 233, rfl⟩
abbrev main_call6_v6 : Ref sig .tc := ⟨.hbm, 234, rfl⟩
abbrev main_call6_v7 : Ref sig .tc := ⟨.hbm, 235, rfl⟩
abbrev main_call6_cst_1 : Ref sig .tc := ⟨.hbm, 236, rfl⟩
abbrev main_call6_v8 : Ref sig .tc := ⟨.hbm, 237, rfl⟩
abbrev main_call6_cst_2 : Ref sig .tc := ⟨.hbm, 238, rfl⟩
abbrev main_call6_v9 : Ref sig .tc := ⟨.hbm, 239, rfl⟩
abbrev main_call6_v10 : Ref sig .tc := ⟨.hbm, 240, rfl⟩
abbrev main_call6_v11 : Ref sig .tc := ⟨.hbm, 241, rfl⟩
abbrev main_call6_v12 : Ref sig .tc := ⟨.hbm, 242, rfl⟩
abbrev main_call6_cst_3 : Ref sig .tc := ⟨.hbm, 243, rfl⟩
abbrev main_call6_v13 : Ref sig .tc := ⟨.hbm, 244, rfl⟩
abbrev main_call6_cst_4 : Ref sig .tc := ⟨.hbm, 245, rfl⟩
abbrev main_call6_call0_v0 : Ref sig .tc := ⟨.hbm, 246, rfl⟩
abbrev main_call6_call0_v1 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_17 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  reducesTo_S256x128_S256_d1 : S256x128.ReducesTo [1] S256
  h_S_ : 0 < S_.numel
  bcast_S_S256x1 : S_.BroadcastsInDim S256x1 (![] : Fin 0 → Fin S256x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  dot_S256x128_S128x128_S256x128_1_0_0_1_n_n_wf : DotDims.WF S256x128 S128x128 S256x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

class Facts : Prop extends Facts₀ where

variable [Facts]
-- ==== Proof.K.Run.lean ====
import proofs.«423486_j42142219108934_1_alg».proof.Proof.Gen.Kernel.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg BodyObligation)

variable {F : FTy → Type} [FloatOps F]

local notation "𝕄" => MT nD τ sig Unit (Elt F) ℕ (UR sig nD τ) ℕ

abbrev run_rest (c : Dev nD) : sProp 𝕄 :=
  iprop((∃ r, prngReg c r) ∗ ∃ W, owes (c : Thread nD τ) (0 : CellTallies nD τ sig Unit) W)
abbrev run_noPairs : GSem nD τ sig → Finset Unit := fun _ => ∅
abbrev run_noLevel : GSem nD τ sig → Unit → ℕ := fun _ _ => 0

abbrev run_atRefs (W : Dev nD → Valuation τ sig (Elt F)) :
    (c : Dev nD) → (b : Ref sig .tc) → Buf (Elt F) ((c : Thread nD τ).loc b) := fun c b => W c b

variable (pdats : (p : Fin 4) → (c : Dev nD) → Dat τ (Elt F) Unit ℕ (UR sig nD τ) ℕ (cfgs p) c)

abbrev run_Seg (p : Fin 4) := RegionSeg (pcfgs (F := F)) adm pdats () defs₀ Variants.none run_noPairs run_noLevel p

-- What loop `p` needs of its proof data to be entered at the valuation `Vin` and to leave `x` in the array of window `o`.
structure RegionData (p : Fin 4)
    (Vin : Dev nD → Valuation τ sig (Elt F)) (o : Fin (cfgs p).W)
    (x : (c : Dev nD) → Buf (Elt F) ((c : Thread nD τ).loc (Pipeline.arrRef (cfgs p).spec o))) : Prop where
  hbody : ∀ c, BodyObligation (pdats p c) (defs₀ (F := F)) Variants.none () Set.univ
  hq : ∀ c w, (pdats p c).q w = fullShare
  howed : ∀ c t, (pdats p c).owed t = 0
  hrec : ∀ c, (pdats p c).recorded 0 = Set.univ
  hin : ∀ c, (Pipeline.ΦA (cfgs p).spec c : sProp 𝕄) ⊢ (pdats p c).Φ 0
  hout : ∀ c, (pdats p c).Φ (Fin.last _) ⊢ (Pipeline.ΦA (cfgs p).spec c : sProp 𝕄)
  hA : ∀ c w, (pdats p c).A w = run_atRefs Vin c (Pipeline.arrRef (cfgs p).spec w)
  ho : ∀ c, x c = (pdats p c).arrAt o (cfgs p).N

-- Window `o` is loop `p`'s only output, and no other window has its array.
abbrev run_onlyOut (p : Fin 4) (o : Fin (cfgs p).W) : Prop :=
  ∀ w, w ≠ o → ((cfgs p).win w).isOut = false ∧ Pipeline.arrRef (cfgs p).spec w ∉ [Pipeline.arrRef (cfgs p).spec o]
theorem run_onlyOuts : run_onlyOut 0 (10 : Fin 11) ∧ run_onlyOut 1 (10 : Fin 11) ∧ run_onlyOut 2 (10 : Fin 11) ∧ run_onlyOut 3 (6 : Fin 7) := by
  decide

set_option backward.isDefEq.respectTransparency.types false in
-- Loop `p` as a segment from `Vin` to `Vout`, which is `Vin` but for `x` at the array of window `o`.
def run_regionOf {p : Fin 4}
    (lf : Pipeline.LaunchFacts (nD := nD) (τ := τ) cfgs p) {Vin : Dev nD → Valuation τ sig (Elt F)} (Vout : Dev nD → Valuation τ sig (Elt F))
    {o : Fin (cfgs p).W} {x : (c : Dev nD) → Buf (Elt F) ((c : Thread nD τ).loc (Pipeline.arrRef (cfgs p).spec o))}
    (D : RegionData pdats p Vin o x)
    (hio : run_onlyOut p o)
    (hV : ∀ c b, b ∉ [Pipeline.arrRef (cfgs p).spec o] → Vout c b = Vin c b)
    (hx : ∀ c, run_atRefs Vout c (Pipeline.arrRef (cfgs p).spec o) = x c) :
    run_Seg pdats p where
  win := lf.win.to₀
  block_pos := lf.block_pos
  stage_whole := lf.stage_whole
  K := PEmpty
  osem k := k.elim
  ho := Pipeline.OwnSemFacts.none _
  hbody c := (D.hbody c).loose
  hwaits := Pipeline.hwaits_of_owed_zero _ _ _ _ run_noPairs run_noLevel p D.howed
  pre c := iprop(StableHlo.held (c : Thread nD τ) (Pipeline.ucRefs τ sig) (Vin c) ∗ run_rest c)
  post c := iprop(StableHlo.held (c : Thread nD τ) (Pipeline.ucRefs τ sig) (Vout c) ∗ run_rest c)
  X c := iprop(∃ r, prngReg c r)
  Y c := iprop(∃ r, prngReg c r)
  Z c := Pipeline.unscopedRest (Ix := Unit) (Name := ℕ) (U := UR sig nD τ) (Lvl := ℕ) (cfgs p).spec c (run_atRefs Vin c)
  hentry c := by
    rw [Pipeline.ownSems0_none]
    have hsplit := Pipeline.arrays_of_unscopedBufs (p := p) (pcfgs (F := F)) adm pdats lf.win lf.arr_whole c
      ((pdats p c).share_full (D.hq c)) (run_atRefs Vin c) (D.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [D.hrec c]; trivial)
      rw [D.howed c 0]; iexact HO
    isplitl [Hp]; · iexact Hp
    iexact Hrest
  hin c := by
    refine .trans ?_ (D.hin c); unfold Pipeline.ΦA
    iintro ⟨Hp, -, Hr⟩
    isplitl [Hr]; · iexact Hr
    iexact Hp
  hout c := by
    rw [Pipeline.ownSems0_none]
    refine (D.hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (D.hq c))
      (run_atRefs Vin c) (run_atRefs Vout c) ((pdats p c).arrAt · (cfgs p).N)
      (fun w => by
        by_cases hw : w = o
        · subst hw; exact (D.ho c).symm.trans (hx c).symm
        · rw [(pdats p c).arrAt_in w (hio w hw).1, D.hA c w]; exact (hV c _ (hio w hw).2).symm)
      (fun b hb => hV c b fun hm => hb (by
        rw [List.mem_singleton] at hm; subst hm; exact Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [D.howed c (Fin.last _)]; iexact HO

set_option backward.isDefEq.respectTransparency.types false in
-- The program's items, whatever the four loops' segments.
theorem run_progs (m : (ℓ : Loc nD τ sig) → Buf (Elt F) ℓ) (outs : Gen.Outs (F := F))
    (R0 : run_Seg pdats 0) (R1 : run_Seg pdats 1)
    (R2 : run_Seg pdats 2) (R3 : run_Seg pdats 3) (c : Dev nD) :
    (segs m outs Variants.none run_noPairs run_noLevel (fun _ c => run_rest c) () pdats R0 R1 R2 R3 c).map Seg.prog =
      [StableHlo.seq hostOps0, StableHlo.seq hostOps0_1, StableHlo.seq hostOps0_2, StableHlo.seq hostOps0_3, StableHlo.seq hostOps0_4, Prog.lift (.customCall (Pipeline.entry 0) ()), StableHlo.seq hostOps1, StableHlo.seq hostOps1_1, StableHlo.seq hostOps1_2, StableHlo.seq hostOps1_3, StableHlo.seq hostOps1_4, Prog.lift (.customCall (Pipeline.entry 1) ()), StableHlo.seq hostOps2, StableHlo.seq hostOps2_1, StableHlo.seq hostOps2_2, StableHlo.seq hostOps2_3, StableHlo.seq hostOps2_4, Prog.lift (.customCall (Pipeline.entry 2) ()), StableHlo.seq hostOps3, StableHlo.seq hostOps3_1, StableHlo.seq hostOps3_2, StableHlo.seq hostOps3_3, StableHlo.seq hostOps3_4, Prog.lift (.customCall (Pipeline.entry 3) ())] := rfl

set_option backward.isDefEq.respectTransparency.types false in
-- The program's items in turn: every fair run from `m` ends with every long-lived buffer at the last valuation.
theorem run_main_of (m : (ℓ : Loc nD τ sig) → Buf (Elt F) ℓ) (ρ : Dev nD → PrngReg) (outs : Gen.Outs (F := F))
    (D0 : RegionData pdats 0 (Gen.V5 m) (10 : Fin 11) (outs 6 main_v38))
    (D1 : RegionData pdats 1 (Gen.V11 m outs) (10 : Fin 11) (outs 12 main_v74))
    (D2 : RegionData pdats 2 (Gen.V17 m outs) (10 : Fin 11) (outs 18 main_v110))
    (D3 : RegionData pdats 3 (Gen.V23 m outs) (6 : Fin 7) (outs 24 main_v118)) :
    θ_run defs (onTc (τ := τ) (main (F := F))) ⟨m, fun _ => 0, ρ⟩ (fun r => ∀ c : Dev nD, ∀ b ∈ Pipeline.ucRefs τ sig,
      r.2.mem (((c : Dev nD).tc : Thread nD τ).1, b) = Gen.V24 m outs c b) := by
  refine Pipeline.θ_run_regions_kit_dev (pcfgs (F := F)) adm pdats () cellOf_inj emb₁ defs₀ Variants.none run_noPairs run_noLevel m ρ main
    (segs m outs Variants.none run_noPairs run_noLevel (fun _ c => run_rest c) () pdats
      (run_regionOf pdats launch0 (Gen.V6 m outs) D0 run_onlyOuts.1 (Gen.V6_of m outs) fun _ => Function.update_self ..)
      (run_regionOf pdats launch1 (Gen.V12 m outs) D1 run_onlyOuts.2.1 (Gen.V12_of m outs) fun _ => Function.update_self ..)
      (run_regionOf pdats launch2 (Gen.V18 m outs) D2 run_onlyOuts.2.2.1 (Gen.V18_of m outs) fun _ => Function.update_self ..)
      (run_regionOf pdats launch3 (Gen.V24 m outs) D3 run_onlyOuts.2.2.2 (Gen.V24_of m outs) fun _ => Function.update_self ..))
    (fun c Q => by rewrite [main_chain c, Seg.run_eq_chain, run_progs]; exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ run_rest c))
    (Tₙ := fun c => StableHlo.held (c : Thread nD τ) (Pipeline.ucRefs τ sig) (V24 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := Pipeline.initEach run_noPairs run_noLevel fun c => ?_)
    (QY := fun c s => ∀ b ∈ Pipeline.ucRefs τ sig, s.mem (((c : Dev nD).tc : Thread nD τ).1, b) = Gen.V24 m outs c b)
    (hfin := fun c s' => ?_) (hQ := fun _ h => h)
  · rw [ownU_emb₁, BI.bigSep_emp_const]; iintro Hu; imodintro
    isplitl [Hu]; · iexact Hu
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    imodintro
    iapply (pointsTo_read_all (Pipeline.ucRefs τ sig) (fun b => (((c : Dev nD).tc : Thread nD τ).1, b)) (Gen.V24 m outs c) s')
    isplitl [Hh] <;> iassumption

end Cert.Kernel.Hand

end
-- ==== Proof.K.Outs.lean ====
import proofs.«423486_j42142219108934_1_alg».proof.Proof.Gen.Kernel.Regions

noncomputable section

namespace Cert.Kernel.Hand

open Cert.Kernel Cert.Kernel.Gen Idealize.ShloMosaic Idealize.ShloMosaic.TcCoe Idealize.SL.Sem

variable {F : FTy → Type} [FloatOps F]
variable (m : (ℓ : Loc nD τ sig) → Buf (Elt F) ℓ)

variable (a0 : (c : Dev nD) → Buf (Elt F) ((c : Thread nD τ).loc main_v38)) (a1 b1 : (c : Dev nD) → Buf (Elt F) ((c : Thread nD τ).loc main_v74))
    (a2 b2 : (c : Dev nD) → Buf (Elt F) ((c : Thread nD τ).loc main_v110)) (a3 b3 : (c : Dev nD) → Buf (Elt F) ((c : Thread nD τ).loc main_v118))

-- The family that holds `a0`, `a1`, `a2`, `a3` at the four loops' output buffers and the launch contents elsewhere.
def mkOuts : Gen.Outs (F := F) :=
  fun _ r c =>
    if h0 : r = main_v38 then h0 ▸ a0 c
    else if h1 : r = main_v74 then h1 ▸ a1 c
    else if h2 : r = main_v110 then h2 ▸ a2 c
    else if h3 : r = main_v118 then h3 ▸ a3 c
    else m ((c : Thread nD τ).loc r)

theorem mkOuts_38 (n : ℕ) (c : Dev nD) : mkOuts m a0 a1 a2 a3 n main_v38 c = a0 c := by
  unfold mkOuts; rw [dif_pos rfl]
theorem mkOuts_74 (n : ℕ) (c : Dev nD) : mkOuts m a0 a1 a2 a3 n main_v74 c = a1 c := by
  unfold mkOuts; rw [dif_neg (by decide), dif_pos rfl]
theorem mkOuts_110 (n : ℕ) (c : Dev nD) : mkOuts m a0 a1 a2 a3 n main_v110 c = a2 c := by
  unfold mkOuts; rw [dif_neg (by decide), dif_neg (by decide), dif_pos rfl]
theorem mkOuts_118 (n : ℕ) (c : Dev nD) : mkOuts m a0 a1 a2 a3 n main_v118 c = a3 c := by
  unfold mkOuts; rw [dif_neg (by decide), dif_neg (by decide), dif_neg (by decide), dif_pos rfl]

-- The valuation a loop is entered at reads the family only at the earlier loops' outputs.
theorem V11_mk : Gen.V11 m (mkOuts m a0 a1 a2 a3) = Gen.V11 m (mkOuts m a0 b1 b2 b3) := by
  funext c; unfold Gen.V11 Gen.V10 Gen.V9 Gen.V8 Gen.V7 Gen.V6; rw [mkOuts_38, mkOuts_38]
theorem V17_mk : Gen.V17 m (mkOuts m a0 a1 a2 a3) = Gen.V17 m (mkOuts m a0 a1 b2 b3) := by
  funext c; unfold Gen.V17 Gen.V16 Gen.V15 Gen.V14 Gen.V13 Gen.V12; rw [mkOuts_74, mkOuts_74, V11_mk m a0 a1 a1 a2 b2 a3 b3]
theorem V23_mk : Gen.V23 m (mkOuts m a0 a1 a2 a3) = Gen.V23 m (mkOuts m a0 a1 a2 b3) := by
  funext c; unfold Gen.V23 Gen.V22 Gen.V21 Gen.V20 Gen.V19 Gen.V18; rw [mkOuts_110, mkOuts_110, V17_mk m a0 a1 a2 a2 a3 b3]

theorem V24_118 (outs : Gen.Outs (F := F)) (c : Dev nD) : Gen.V24 m outs c main_v118 = outs 24 main_v118 c :=
  Function.update_self ..

end Cert.Kernel.Hand

end
-- ==== Proof.K.Mlp0.lean ====
import proofs.«423486_j42142219108934_1_alg».proof.Proof.Gen.Kernel.Launch
import proofs.«423486_j42142219108934_1_alg».proof.Proof.Gen.Kernel.Skeleton
import proofs.«423486_j42142219108934_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S5888x128 := Rect.unit (s := S5888x128) ![0, 0] S5888x128.size inb_S5888x128_S5888x128_0_0
abbrev r0_w : Rect S128x128 := Rect.unit (s := S128x128) ![0, 0] S128x128.size inb_S128x128_S128x128_0_0
abbrev r0_v : Rect S1x128 := Rect.unit (s := S1x128) ![0, 0] S1x128.size inb_S1x128_S1x128_0_0

def out0_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k0_pay1 (k0_pay2 (View.ld x0 r0_big) (View.ld x1 r0_big) (View.ld x2 r0_w) (View.ld x3 r0_v) (View.ld x6 r0_v) (View.ld x7 r0_v) (View.ld x4 r0_v) (View.ld x5 r0_v)) (k0_pay3 (View.ld x8 r0_w)) (View.ld x9 r0_v)⟩]

set_option maxHeartbeats 1000000 in
-- a single piece tiling the whole shape: every index reads that piece's payload
theorem sound_kernel0 (c : Dev nD) (E : Set ℕ) (i : grid0.Coords) (arg1 : Memref sig .tc .vmem S5888x128 .f32) (harg1 : arg1.IsWhole) (arg2 : Memref sig .tc .vmem S5888x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5888x128 .f32) (harg11 : arg11.IsWhole)
    (x0 x1 : Vec F S5888x128 .f32) (x2 : Vec F S128x128 .f32) (x3 x4 x5 x6 x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_layer_kernel i arg1 harg1 arg2 harg2 arg3 harg3 arg4 harg4 arg5 harg5 arg6 harg6 arg7 harg7 arg8 harg8 arg9 harg9 arg10 harg10 arg11 harg11) K := by
  simp only [cc0__mlp_layer_kernel_eq_skeleton]; unfold cc0__mlp_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (View.cover_of_tiled _ S5888x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

-- for w ≠ 10, `before w` and `after w` are both the block of the entry array
theorem before0 (c : Dev nD) (w : Fin 11) (hw : w ≠ 10) (t : Fin cfg0.N) (d) :
    (dat0 V c).before w t d = (dat0 V c).after w t := by
  fin_cases w <;> first
    | exact absurd rfl hw
    | exact (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp (disch := decide) only [before0 V c]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  iframe H0 H1 H2 H3 H4 H5 H6 H7 H8 H9
  isplitl [H10]; · iexists _; iexact H10
  iintro ⟨H0, H1, H2, H3, H4, H5, H6, H7, H8, H9, H10⟩
  iframe
  iexact Ho

end Cert.Kernel.Hand
-- ==== Proof.K.Mlp1.lean ====
import proofs.«423486_j42142219108934_1_alg».proof.Proof.Gen.Kernel.Launch
import proofs.«423486_j42142219108934_1_alg».proof.Proof.Gen.Kernel.Skeleton
import proofs.«423486_j42142219108934_1_alg».proof.Proof.Gen.Kernel.Points
import proofs.«423486_j42142219108934_1_alg».proof.Proof.K.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k1_pay1 (k1_pay2 (View.ld x0 r0_big) (View.ld x1 r0_big) (View.ld x2 r0_w) (View.ld x3 r0_v) (View.ld x6 r0_v) (View.ld x7 r0_v) (View.ld x4 r0_v) (View.ld x5 r0_v)) (k1_pay3 (View.ld x8 r0_w)) (View.ld x9 r0_v)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

-- for w ≠ 10, `before w` and `after w` are both the block of the entry array
theorem before1 (c : Dev nD) (w : Fin 11) (hw : w ≠ 10) (t : Fin cfg1.N) (d) :
    (dat1 V c).before w t d = (dat1 V c).after w t := by
  fin_cases w <;> first
    | exact absurd rfl hw
    | exact (Dat.before_in_eq_fetched _ _ rfl (fun _ => rfl) (fun _ _ _ => rfl) (fun _ => rfl) t d).trans rfl

-- region 1's block program is region 0's
theorem cc1_eq : cc1__mlp_layer_kernel (F := F) = cc0__mlp_layer_kernel (F := F) := rfl

theorem body_obligation1 (c : Dev nD) : BodyObligation (dat1 (F := F) V c) (defs₀ (F := F)) Variants.none () Set.univ := fun t => by
  rw [bigSep_W1, bigSep_W1]
  simp (disch := decide) only [before1 V c]
  dsimp only [dat1]
  change _ ⊢ wp _ _ _ (bodyAt1 t) _
  rw [bodyAt1, cc1_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro ⟨H0, H1, H2, H3, H4, H5, H6, H7, H8, H9, H10⟩
  iframe
  isplitl [Ho]; · iexact Ho
  iexact H10

end Cert.Kernel.Hand
-- ==== Proof.K.Mlp2.lean ====
import proofs.«423486_j42142219108934_1_alg».proof.Proof.Gen.Kernel.Launch
import proofs.«423486_j42142219108934_1_alg».proof.Proof.Gen.Kernel.Skeleton
import proofs.«423486_j42142219108934_1_alg».proof.Proof.Gen.Kernel.Points
import proofs.«423486_j42142219108934_1_alg».proof.Proof.K.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k2_pay1 (k2_pay2 (View.ld x0 r0_big) (View.ld x1 r0_big) (View.ld x2 r0_w) (View.ld x3 r0_v) (View.ld x6 r0_v) (View.ld x7 r0_v) (View.ld x4 r0_v) (View.ld x5 r0_v)) (k2_pay3 (View.ld x8 r0_w)) (View.ld x9 r0_v)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := rfl

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

-- for w ≠ 10, `before w` and `after w` are both the block of the entry array
theorem before2 (c : Dev nD) (w : Fin 11) (hw : w ≠ 10) (t : Fin cfg2.N) (d) :
    (dat2 V c).before w t d = (dat2 V c).after w t := by
  fin_cases w <;> first
    | exact absurd rfl hw
    | exact (Dat.before_in_eq_fetched _ _ rfl (fun _ => rfl) (fun _ _ _ => rfl) (fun _ => rfl) t d).trans rfl

-- region 2's block program is region 0's
theorem cc2_eq : cc2__mlp_layer_kernel (F := F) = cc0__mlp_layer_kernel (F := F) := rfl

theorem body_obligation2 (c : Dev nD) : BodyObligation (dat2 (F := F) V c) (defs₀ (F := F)) Variants.none () Set.univ := fun t => by
  rw [bigSep_W2, bigSep_W2]
  simp (disch := decide) only [before2 V c]
  dsimp only [dat2]
  change _ ⊢ wp _ _ _ (bodyAt2 t) _
  rw [bodyAt2, cc2_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  iframe H0 H1 H2 H3 H4 H5 H6 H7 H8 H9
  isplitl [H10]; · iexists _; iexact H10
  iintro ⟨H0, H1, H2, H3, H4, H5, H6, H7, H8, H9, H10⟩
  iframe
  isplitl [Ho]; · iexact Ho
  iexact H10

end Cert.Kernel.Hand
-- ==== Proof.K.PoolRuns.lean ====
import proofs.«423486_j42142219108934_1_alg».proof.Proof.Gen.Kernel.Launch
import proofs.«423486_j42142219108934_1_alg».proof.Proof.Gen.Kernel.Skeleton
import proofs.«423486_j42142219108934_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hz3 : (![0, 0] : Fin 2 → ℕ) = fun _ => 0 := by funext a; fin_cases a <;> rfl

-- Reading through a whole view is a bijection, so owning it at `X` is owning its cells at the preimage of `X`.
theorem owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Val := Elt F) (Ix := Unit) (Name := ℕ) (U := UR sig nD τ) (Lvl := ℕ) (c : Thread nD τ) m q (h.unread X)
  rw [h.read_unread] at h₂
  exact BI.equiv_iff.mp ⟨h₁, h₂⟩

variable (c : Dev nD) (i : grid3.Coords) (arg1 : Memref sig .tc .vmem S5888x128 .f32) (harg1 : arg1.IsWhole) (arg2 : Memref sig .tc .vmem S1x5888 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256 .f32) (harg9 : arg9.IsWhole)
variable (x0 : Vec F S5888x128 .f32) (x1 : Vec F S1x5888 .i32) (x2 : Vec F S128x128 .f32) (x3 : Vec F S1x128 .f32) (x4 : Vec F S1x128 .f32) (x5 : Vec F S1x128 .f32)

-- The six operand blocks at `x0 … x5`, beside `R`: every kind of row block returns them as found.
abbrev ins3 (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ R)

set_option maxHeartbeats 4000000 in
-- The first row block: the accumulators restart from zero whatever they held.
theorem run3_first (hc0 : cond3_0 i) (hc1 : ¬cond3_1 i)
    (xi6 : Vec F S256x128 .f32) (E : Set ℕ) (K : PUnit → sProp 𝕄) :
    ins3 c arg1 arg2 arg3 arg4 arg5 arg6 x0 x1 x2 x3 x4 x5 iprop(owns (c : Thread nD τ) arg7 fullShare xi6 ∗ (∃ d, owns (c : Thread nD τ) arg8 fullShare d) ∗ (∃ d, owns (c : Thread nD τ) arg9 fullShare d)
        ∗ (ins3 c arg1 arg2 arg3 arg4 arg5 arg6 x0 x1 x2 x3 x4 x5 iprop(owns (c : Thread nD τ) arg7 fullShare xi6
            ∗ owns (c : Thread nD τ) arg8 fullShare (k3_pay4 x1 x0 k3_pay1)
            ∗ owns (c : Thread nD τ) arg9 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [owns_unread c harg1, owns_unread c harg2, owns_unread c harg3, owns_unread c harg4, owns_unread c harg5, owns_unread c harg6, owns_unread c harg7]
  unfold owns
  iintro ⟨H0, H1, H2, H3, H4, H5, H6, ⟨%ds0, %fs0, -, HS0⟩, ⟨%ds1, %fs1, -, HS1⟩, Hk⟩
  sl_exec (disch := first | exact hc0 | exact hc1)
  sl_step
  iapply Hk
  iframe H0 H1 H2 H3 H4 H5 H6
  isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_cons_unit_zero (S := S256x128) hz3]
    | rw [View.read_writes_eq_canon _ _ _ (fun y => ⟨_, List.mem_cons.mpr (Or.inl rfl), View.mem_set_unit_zero hz3 inb_S1x256_S1x256_0_0 y⟩), View.canon_cons_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

set_option maxHeartbeats 4000000 in
-- A row block in between: the running sums are read, the block's contribution added, the sums stored back.
theorem run3_mid (hc0 : ¬cond3_0 i) (hc1 : ¬cond3_1 i)
    (xi6 : Vec F S256x128 .f32) (xs0 : Vec F S256x128 .f32) (xs1 : Vec F S1x256 .f32) (E : Set ℕ) (K : PUnit → sProp 𝕄) :
    ins3 c arg1 arg2 arg3 arg4 arg5 arg6 x0 x1 x2 x3 x4 x5 iprop(owns (c : Thread nD τ) arg7 fullShare xi6 ∗ owns (c : Thread nD τ) arg8 fullShare xs0 ∗ owns (c : Thread nD τ) arg9 fullShare xs1
        ∗ (ins3 c arg1 arg2 arg3 arg4 arg5 arg6 x0 x1 x2 x3 x4 x5 iprop(owns (c : Thread nD τ) arg7 fullShare xi6
            ∗ owns (c : Thread nD τ) arg8 fullShare (k3_pay4 x1 x0 xs0)
            ∗ owns (c : Thread nD τ) arg9 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [owns_unread c harg1, owns_unread c harg2, owns_unread c harg3, owns_unread c harg4, owns_unread c harg5, owns_unread c harg6, owns_unread c harg7]
  unfold owns
  iintro ⟨H0, H1, H2, H3, H4, H5, H6, ⟨%fs0, %hfs0, HS0⟩, ⟨%fs1, %hfs1, HS1⟩, Hk⟩
  obtain rfl := harg8.eq_unread hfs0; obtain rfl := harg9.eq_unread hfs1
  sl_exec (disch := first | exact hc0 | exact hc1)
  sl_step
  iapply Hk
  iframe H0 H1 H2 H3 H4 H5 H6
  isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_unit_zero (S := S256x128) hz3]
    | rw [View.read_writes_eq_canon _ _ _ (fun y => ⟨_, List.mem_cons.mpr (Or.inl rfl), View.mem_set_unit_zero hz3 inb_S1x256_S1x256_0_0 y⟩), View.canon_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

set_option maxHeartbeats 4000000 in
-- The last row block: after the addition the output block is stored whole from the finished sums and counts.
theorem run3_last (hc0 : ¬cond3_0 i) (hc1 : cond3_1 i)
    (xs0 : Vec F S256x128 .f32) (xs1 : Vec F S1x256 .f32) (E : Set ℕ) (K : PUnit → sProp 𝕄) :
    ins3 c arg1 arg2 arg3 arg4 arg5 arg6 x0 x1 x2 x3 x4 x5 iprop((∃ d, owns (c : Thread nD τ) arg7 fullShare d) ∗ owns (c : Thread nD τ) arg8 fullShare xs0 ∗ owns (c : Thread nD τ) arg9 fullShare xs1
        ∗ (ins3 c arg1 arg2 arg3 arg4 arg5 arg6 x0 x1 x2 x3 x4 x5 iprop(owns (c : Thread nD τ) arg7 fullShare (k3_pay6 (k3_pay5 x1 xs1) (k3_pay4 x1 x0 xs0) x2 x3 x4 x5)
            ∗ owns (c : Thread nD τ) arg8 fullShare (k3_pay4 x1 x0 xs0)
            ∗ owns (c : Thread nD τ) arg9 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [k3_part1_eq_skeleton]
  simp only [owns_unread c harg1, owns_unread c harg2, owns_unread c harg3, owns_unread c harg4, owns_unread c harg5, owns_unread c harg6]
  unfold owns
  iintro ⟨H0, H1, H2, H3, H4, H5, ⟨%d6, %f6, -, H6⟩, ⟨%fs0, %hfs0, HS0⟩, ⟨%fs1, %hfs1, HS1⟩, Hk⟩
  obtain rfl := harg8.eq_unread hfs0; obtain rfl := harg9.eq_unread hfs1
  sl_exec (disch := first | exact hc0 | exact hc1)
  sl_step
  iapply Hk
  iframe H0 H1 H2 H3 H4 H5
  isplitl [H6]; swap; isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_unit_zero (S := S256x128) hz3]
    | rw [View.read_writes_eq_canon _ _ _ (fun y => ⟨_, List.mem_cons.mpr (Or.inl rfl), View.mem_set_unit_zero hz3 inb_S1x256_S1x256_0_0 y⟩), View.canon_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

end Cert.Kernel.Hand
end
-- ==== Proof.K.Pool.lean ====
import proofs.«423486_j42142219108934_1_alg».proof.Proof.K.PoolRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S256x128 .f32 := Memref.whole cc3_scratch0
abbrev scM3_1 : Memref sig .tc .vmem S1x256 .f32 := Memref.whole cc3_scratch1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 16 :=
  (by decide +kernel : ∀ t : Fin grid3.N, cond3_1 (grid3.coords t) ↔ t.val = 16)

theorem idleAt3_6 : ∀ t : Fin cfg3.N, t.val ≠ 16 → cfg3.idle 6 (grid3.coords t) = true ∧ (cfg3.win 6).flush t = false := by decide +kernel
theorem liveAt3_6 : ∀ t : Fin cfg3.N, t.val = 16 → cfg3.idle 6 (grid3.coords t) = false := by decide +kernel

theorem N3 : cfg3.N = 17 := N_3

-- The sums and counts after row block `n`: the block's contribution added to what the block before left, or to zeros.
def accAt3 (c : Dev nD) : (n : ℕ) → n < cfg3.N → Vec F S256x128 .f32 × Vec F S1x256 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (accAt3 c n (Nat.lt_of_succ_lt hn)).1,
      k3_pay5 (iblk3 V c 1 ⟨n + 1, hn⟩) (accAt3 c n (Nat.lt_of_succ_lt hn)).2)

theorem accAt3_zero (c : Dev nD) (h0 : 0 < cfg3.N) :
    accAt3 V c 0 h0 = (k3_pay4 (iblk3 V c 1 ⟨0, h0⟩) (iblk3 V c 0 ⟨0, h0⟩) k3_pay1, k3_pay5 (iblk3 V c 1 ⟨0, h0⟩) k3_pay2) := rfl

theorem accAt3_succ (c : Dev nD) (n : ℕ) (hn : n + 1 < cfg3.N) :
    accAt3 V c (n + 1) hn = (k3_pay4 (iblk3 V c 1 ⟨n + 1, hn⟩) (iblk3 V c 0 ⟨n + 1, hn⟩) (accAt3 V c n (Nat.lt_of_succ_lt hn)).1,
      k3_pay5 (iblk3 V c 1 ⟨n + 1, hn⟩) (accAt3 V c n (Nat.lt_of_succ_lt hn)).2) := rfl

theorem lt16_3 : 16 < cfg3.N := by rw [N3]; omega

def out3_6 (c : Dev nD) : Vec F S256x128 .f32 :=
  k3_pay6 (accAt3 V c 16 lt16_3).2 (accAt3 V c 16 lt16_3).1 (iblk3 V c 2 ⟨16, lt16_3⟩) (iblk3 V c 3 ⟨16, lt16_3⟩) (iblk3 V c 4 ⟨16, lt16_3⟩) (iblk3 V c 5 ⟨16, lt16_3⟩)

theorem out3_6_eq (c : Dev nD) :
    out3_6 V c = k3_pay6 (accAt3 V c 16 lt16_3).2 (accAt3 V c 16 lt16_3).1 (iblk3 V c 2 ⟨16, lt16_3⟩) (iblk3 V c 3 ⟨16, lt16_3⟩) (iblk3 V c 4 ⟨16, lt16_3⟩) (iblk3 V c 5 ⟨16, lt16_3⟩) := rfl

-- The loop's state between row blocks: the two accumulators hold `p`.
def acc3 (c : Dev nD) (p : Vec F S256x128 .f32 × Vec F S1x256 .f32) : sProp 𝕄 :=
  iprop(iprop(iprop(owns (c : Thread nD τ) scM3_0 fullShare p.1 ∗ owns (c : Thread nD τ) scM3_1 fullShare p.2)
      ∗ Pipeline.scopedRestBut (Ix := Unit) (Name := ℕ) (U := UR sig nD τ) (Lvl := ℕ) (Val := Elt F) spec3 c [cc3_scratch0, cc3_scratch1])
    ∗ (∃ r, prngReg c r))

def Phi3 (c : Dev nD) : (n : ℕ) → n ≤ cfg3.N → sProp 𝕄
  | 0, _ => Pipeline.ΦA spec3 c
  | n + 1, hn => acc3 c (accAt3 V c n hn)

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 V c := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

theorem accAt3_pos (c : Dev nD) (t : Fin cfg3.N) (ht : t.val ≠ 0) :
    accAt3 V c t.val t.isLt = (k3_pay4 (iblk3 V c 1 t) (iblk3 V c 0 t) (accAt3 V c (t.val - 1) (Nat.lt_of_le_of_lt (Nat.sub_le _ _) t.isLt)).1,
      k3_pay5 (iblk3 V c 1 t) (accAt3 V c (t.val - 1) (Nat.lt_of_le_of_lt (Nat.sub_le _ _) t.isLt)).2) := by
  obtain ⟨n, hn⟩ := t
  cases n with
  | zero => exact absurd rfl ht
  | succ n => rfl

theorem accAt3_first (c : Dev nD) (t : Fin cfg3.N) (ht : t.val = 0) :
    accAt3 V c t.val t.isLt = (k3_pay4 (iblk3 V c 1 t) (iblk3 V c 0 t) k3_pay1, k3_pay5 (iblk3 V c 1 t) k3_pay2) := by
  obtain ⟨n, hn⟩ := t
  obtain rfl : n = 0 := ht
  rfl

theorem out3_6_at (c : Dev nD) (t : Fin cfg3.N) (ht : t.val = 16) :
    out3_6 V c = k3_pay6 (accAt3 V c t.val t.isLt).2 (accAt3 V c t.val t.isLt).1 (iblk3 V c 2 t) (iblk3 V c 3 t) (iblk3 V c 4 t) (iblk3 V c 5 t) := by
  obtain ⟨n, hn⟩ := t
  obtain rfl : n = 16 := ht
  rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = acc3 c (accAt3 V c (n - 1) (by omega)) := by
  cases n with
  | zero => exact absurd rfl hz
  | succ n => rfl

abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop(acc3 c (accAt3 V c t.val t.isLt) ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ (dat3 V c).leavesExact 6 t)

set_option maxHeartbeats 4800000 in
-- Each operand block comes back as found; the accumulators advance by one block; the output block is stored at the last block only.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.castSucc = Phi3 V c t.val (Nat.le_of_lt t.isLt) from rfl]
  by_cases h0 : t.val = 0
  · have h1 : t.val ≠ 16 := by omega
    rw [Dat.leavesExact_idle _ 6 t (idleAt3_6 t h1).1 (idleAt3_6 t h1).2, accAt3_first V c t h0, Phi3_zero V c _ _ h0, PhiA3_eq]
    unfold acc3; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run3_first c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) ((hcond3_0 t).mpr h0) (fun h => h1 ((hcond3_1 t).mp h)) ((dat3 V c).before 6 t d6) Set.univ _)
    unfold ins3
    iframe H0 H1 H2 H3 H4 H5 H6 HS0 HS1
    iintro ⟨H0, H1, H2, H3, H4, H5, H6, HS0, HS1⟩
    iframe HS0 HS1 Hrest Hg Ho H0 H1 H2 H3 H4 H5
    iexists _; iexact H6
  · by_cases h1 : t.val = 16
    · rw [show (dat3 V c).leavesExact 6 t = owns (c : Thread nD τ) (ms3_6 t) fullShare ((dat3 V c).after 6 t) from by
        unfold Dat.leavesExact; rw [liveAt3_6 t h1], after3_6, out3_6_at V c t h1, accAt3_pos V c t h0, Phi3_pos V c _ _ h0]
      generalize accAt3 V c (t.val - 1) _ = p
      unfold acc3; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_last c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) (fun h => h0 ((hcond3_0 t).mp h)) ((hcond3_1 t).mpr h1) p.1 p.2 Set.univ _)
      unfold ins3
      iframe H0 H1 H2 H3 H4 H5 HS0 HS1
      isplitl [H6]; · iexists _; iexact H6
      iintro ⟨H0, H1, H2, H3, H4, H5, H6, HS0, HS1⟩
      iframe HS0 HS1 Hrest Hg Ho H0 H1 H2 H3 H4 H5 H6
    · rw [Dat.leavesExact_idle _ 6 t (idleAt3_6 t h1).1 (idleAt3_6 t h1).2, accAt3_pos V c t h0, Phi3_pos V c _ _ h0]
      generalize accAt3 V c (t.val - 1) _ = p
      unfold acc3; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_mid c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) (fun h => h0 ((hcond3_0 t).mp h)) (fun h => h1 ((hcond3_1 t).mp h)) ((dat3 V c).before 6 t d6) p.1 p.2 Set.univ _)
      unfold ins3
      iframe H0 H1 H2 H3 H4 H5 H6 HS0 HS1
      iintro ⟨H0, H1, H2, H3, H4, H5, H6, HS0, HS1⟩
      iframe HS0 HS1 Hrest Hg Ho H0 H1 H2 H3 H4 H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

-- After the last row block the accumulators' contents are forgotten.
theorem hout3 (c : Dev nD) : (dat3 V c).Φ (Fin.last cfg3.N) ⊢ (Pipeline.ΦA spec3 c : sProp 𝕄) := by
  rw [show (dat3 V c).Φ (Fin.last cfg3.N) = Phi3 V c cfg3.N le_rfl from rfl, Phi3_pos V c cfg3.N le_rfl (by rw [N3]; omega), PhiA3_eq]
  unfold acc3
  iintro ⟨⟨⟨HS0, HS1⟩, Hrest⟩, Hg⟩
  iframe Hrest Hg
  isplitl [HS0] <;> (iexists _; iassumption)

end Cert.Kernel.Hand
end
-- ==== Proof.K.Main.lean ====
import proofs.«423486_j42142219108934_1_alg».proof.Proof.K.Run
import proofs.«423486_j42142219108934_1_alg».proof.Proof.K.Outs
import proofs.«423486_j42142219108934_1_alg».proof.Proof.K.Mlp0
import proofs.«423486_j42142219108934_1_alg».proof.Proof.K.Mlp1
import proofs.«423486_j42142219108934_1_alg».proof.Proof.K.Mlp2
import proofs.«423486_j42142219108934_1_alg».proof.Proof.K.Pool

noncomputable section

namespace Cert.Kernel.Hand

open Cert.Kernel Cert.Kernel.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

-- Each loop's output is named from the valuation it is entered at, which reads only the earlier loops' outputs.
def a0 (c : Dev nD) : Buf (Elt F) ((c : Thread nD τ).loc main_v38) :=
  (dat0 (run_atRefs (Gen.V5 m)) c).arrAt (10 : Fin 11) cfg0.N
def outsA : Gen.Outs (F := F) := mkOuts m (a0 m) (fun c => m ((c : Thread nD τ).loc main_v74)) (fun c => m ((c : Thread nD τ).loc main_v110)) (fun c => m ((c : Thread nD τ).loc main_v118))
def a1 (c : Dev nD) : Buf (Elt F) ((c : Thread nD τ).loc main_v74) :=
  (dat1 (run_atRefs (Gen.V11 m (outsA m))) c).arrAt (10 : Fin 11) cfg1.N
def outsB : Gen.Outs (F := F) := mkOuts m (a0 m) (a1 m) (fun c => m ((c : Thread nD τ).loc main_v110)) (fun c => m ((c : Thread nD τ).loc main_v118))
def a2 (c : Dev nD) : Buf (Elt F) ((c : Thread nD τ).loc main_v110) :=
  (dat2 (run_atRefs (Gen.V17 m (outsB m))) c).arrAt (10 : Fin 11) cfg2.N
def outsC : Gen.Outs (F := F) := mkOuts m (a0 m) (a1 m) (a2 m) (fun c => m ((c : Thread nD τ).loc main_v118))
def a3 (c : Dev nD) : Buf (Elt F) ((c : Thread nD τ).loc main_v118) :=
  (dat3 (run_atRefs (Gen.V23 m (outsC m))) c).arrAt (6 : Fin 7) cfg3.N
def outs : Gen.Outs (F := F) := mkOuts m (a0 m) (a1 m) (a2 m) (a3 m)

theorem outs_38 (c : Dev nD) : outs m 6 main_v38 c = a0 m c := mkOuts_38 m _ _ _ _ 6 c
theorem outs_74 (c : Dev nD) : outs m 12 main_v74 c = a1 m c := mkOuts_74 m _ _ _ _ 12 c
theorem outs_110 (c : Dev nD) : outs m 18 main_v110 c = a2 m c := mkOuts_110 m _ _ _ _ 18 c

theorem a1_eq (c : Dev nD) : a1 m c = (dat1 (run_atRefs (Gen.V11 m (outs m))) c).arrAt (10 : Fin 11) cfg1.N := by
  rw [show Gen.V11 m (outs m) = Gen.V11 m (outsA m) from V11_mk m ..]; rfl
theorem a2_eq (c : Dev nD) : a2 m c = (dat2 (run_atRefs (Gen.V17 m (outs m))) c).arrAt (10 : Fin 11) cfg2.N := by
  rw [show Gen.V17 m (outs m) = Gen.V17 m (outsB m) from V17_mk m ..]; rfl
theorem a3_eq (c : Dev nD) : a3 m c = (dat3 (run_atRefs (Gen.V23 m (outs m))) c).arrAt (6 : Fin 7) cfg3.N := by
  rw [show Gen.V23 m (outs m) = Gen.V23 m (outsC m) from V23_mk m ..]; rfl

def pdats : (p : Fin 4) → (c : Dev nD) → Dat τ (Elt F) Unit ℕ (UR sig nD τ) ℕ (cfgs p) c
  | ⟨0, _⟩ => fun c => dat0 (run_atRefs (Gen.V5 m)) c
  | ⟨1, _⟩ => fun c => dat1 (run_atRefs (Gen.V11 m (outs m))) c
  | ⟨2, _⟩ => fun c => dat2 (run_atRefs (Gen.V17 m (outs m))) c
  | ⟨3, _⟩ => fun c => dat3 (run_atRefs (Gen.V23 m (outs m))) c

theorem run_main (ρ : Dev nD → PrngReg) :
    θ_run defs (onTc (τ := τ) (main (F := F))) ⟨m, fun _ => 0, ρ⟩ (fun r => ∀ c : Dev nD, ∀ b ∈ Pipeline.ucRefs τ sig,
      r.2.mem (((c : Dev nD).tc : Thread nD τ).1, b) = Gen.V24 m (outs m) c b) :=
  run_main_of (pdats m) m ρ (outs m)
    ⟨fun c => body_obligation0 _ c, fun _ _ => rfl, fun _ _ => rfl, fun _ => rfl, fun _ => .rfl, fun _ => .rfl, fun c w => A_eq0 _ c w, outs_38 m⟩
    ⟨fun c => body_obligation1 _ c, fun _ _ => rfl, fun _ _ => rfl, fun _ => rfl, fun _ => .rfl, fun _ => .rfl, fun c w => A_eq1 _ c w,
      fun c => (outs_74 m c).trans (a1_eq m c)⟩
    ⟨fun c => body_obligation2 _ c, fun _ _ => rfl, fun _ _ => rfl, fun _ => rfl, fun _ => .rfl, fun _ => .rfl, fun c w => A_eq2 _ c w,
      fun c => (outs_110 m c).trans (a2_eq m c)⟩
    ⟨fun c => body_obligation3 _ c, fun _ _ => rfl, fun _ _ => rfl, fun _ => rfl, fun c => hin3 _ c, fun c => hout3 _ c, fun c w => A_eq3 _ c w,
      fun c => (mkOuts_118 m _ _ _ _ 24 c).trans (a3_eq m c)⟩

-- No item writes an argument array, so each is read off the last valuation as launched.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨?_, ?_, ?_, ?_, ?_, ?_, ?_, ?_, ?_, ?_, ?_, ?_, ?_, ?_, ?_⟩ <;>
      refine (h c _ (Finset.mem_filter.mpr ⟨StableHlo.devRef_mem_tcRefs _, by decide⟩)).trans ?_
    exacts [Gen.V24_main_arg0 m _ c, Gen.V24_main_arg1 m _ c, Gen.V24_main_arg2 m _ c, Gen.V24_main_arg3 m _ c, Gen.V24_main_arg4 m _ c, Gen.V24_main_arg5 m _ c, Gen.V24_main_arg6 m _ c, Gen.V24_main_arg7 m _ c, Gen.V24_main_arg8 m _ c, Gen.V24_main_arg9 m _ c, Gen.V24_main_arg10 m _ c, Gen.V24_main_arg11 m _ c, Gen.V24_main_arg12 m _ c, Gen.V24_main_arg13 m _ c, Gen.V24_main_arg14 m _ c]) (run_main m ρ)

theorem result_eq (c : Dev nD) : Gen.V24 m (outs m) c main_v118 = a3 m c :=
  (V24_118 m _ c).trans (mkOuts_118 m _ _ _ _ 24 c)

end Cert.Kernel.Hand

end
-- ==== Proof.KI.Run.lean ====
import proofs.«423486_j42142219108934_1_alg».proof.Proof.Gen.KernelIdeal.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg BodyObligation)

variable {F : FTy → Type} [FloatOps F]

local notation "𝕄" => MT nD τ sig Unit (Elt F) ℕ (UR sig nD τ) ℕ

abbrev run_rest (c : Dev nD) : sProp 𝕄 :=
  iprop((∃ r, prngReg c r) ∗ ∃ W, owes (c : Thread nD τ) (0 : CellTallies nD τ sig Unit) W)
abbrev run_noPairs : GSem nD τ sig → Finset Unit := fun _ => ∅
abbrev run_noLevel : GSem nD τ sig → Unit → ℕ := fun _ _ => 0

abbrev run_atRefs (W : Dev nD → Valuation τ sig (Elt F)) :
    (c : Dev nD) → (b : Ref sig .tc) → Buf (Elt F) ((c : Thread nD τ).loc b) := fun c b => W c b

variable (pdats : (p : Fin 4) → (c : Dev nD) → Dat τ (Elt F) Unit ℕ (UR sig nD τ) ℕ (cfgs p) c)

abbrev run_Seg (p : Fin 4) := RegionSeg (pcfgs (F := F)) adm pdats () defs₀ Variants.none run_noPairs run_noLevel p

-- What loop `p` needs of its proof data to be entered at the valuation `Vin` and to leave `x` in the array of window `o`.
structure RegionData (p : Fin 4)
    (Vin : Dev nD → Valuation τ sig (Elt F)) (o : Fin (cfgs p).W)
    (x : (c : Dev nD) → Buf (Elt F) ((c : Thread nD τ).loc (Pipeline.arrRef (cfgs p).spec o))) : Prop where
  hbody : ∀ c, BodyObligation (pdats p c) (defs₀ (F := F)) Variants.none () Set.univ
  hq : ∀ c w, (pdats p c).q w = fullShare
  howed : ∀ c t, (pdats p c).owed t = 0
  hrec : ∀ c, (pdats p c).recorded 0 = Set.univ
  hin : ∀ c, (Pipeline.ΦA (cfgs p).spec c : sProp 𝕄) ⊢ (pdats p c).Φ 0
  hout : ∀ c, (pdats p c).Φ (Fin.last _) ⊢ (Pipeline.ΦA (cfgs p).spec c : sProp 𝕄)
  hA : ∀ c w, (pdats p c).A w = run_atRefs Vin c (Pipeline.arrRef (cfgs p).spec w)
  ho : ∀ c, x c = (pdats p c).arrAt o (cfgs p).N

-- Window `o` is loop `p`'s only output, and no other window has its array.
abbrev run_onlyOut (p : Fin 4) (o : Fin (cfgs p).W) : Prop :=
  ∀ w, w ≠ o → ((cfgs p).win w).isOut = false ∧ Pipeline.arrRef (cfgs p).spec w ∉ [Pipeline.arrRef (cfgs p).spec o]
theorem run_onlyOuts : run_onlyOut 0 (10 : Fin 11) ∧ run_onlyOut 1 (10 : Fin 11) ∧ run_onlyOut 2 (10 : Fin 11) ∧ run_onlyOut 3 (6 : Fin 7) := by
  decide

set_option backward.isDefEq.respectTransparency.types false in
-- Loop `p` as a segment from `Vin` to `Vout`, which is `Vin` but for `x` at the array of window `o`.
def run_regionOf {p : Fin 4}
    (lf : Pipeline.LaunchFacts (nD := nD) (τ := τ) cfgs p) {Vin : Dev nD → Valuation τ sig (Elt F)} (Vout : Dev nD → Valuation τ sig (Elt F))
    {o : Fin (cfgs p).W} {x : (c : Dev nD) → Buf (Elt F) ((c : Thread nD τ).loc (Pipeline.arrRef (cfgs p).spec o))}
    (D : RegionData pdats p Vin o x)
    (hio : run_onlyOut p o)
    (hV : ∀ c b, b ∉ [Pipeline.arrRef (cfgs p).spec o] → Vout c b = Vin c b)
    (hx : ∀ c, run_atRefs Vout c (Pipeline.arrRef (cfgs p).spec o) = x c) :
    run_Seg pdats p where
  win := lf.win.to₀
  block_pos := lf.block_pos
  stage_whole := lf.stage_whole
  K := PEmpty
  osem k := k.elim
  ho := Pipeline.OwnSemFacts.none _
  hbody c := (D.hbody c).loose
  hwaits := Pipeline.hwaits_of_owed_zero _ _ _ _ run_noPairs run_noLevel p D.howed
  pre c := iprop(StableHlo.held (c : Thread nD τ) (Pipeline.ucRefs τ sig) (Vin c) ∗ run_rest c)
  post c := iprop(StableHlo.held (c : Thread nD τ) (Pipeline.ucRefs τ sig) (Vout c) ∗ run_rest c)
  X c := iprop(∃ r, prngReg c r)
  Y c := iprop(∃ r, prngReg c r)
  Z c := Pipeline.unscopedRest (Ix := Unit) (Name := ℕ) (U := UR sig nD τ) (Lvl := ℕ) (cfgs p).spec c (run_atRefs Vin c)
  hentry c := by
    rw [Pipeline.ownSems0_none]
    have hsplit := Pipeline.arrays_of_unscopedBufs (p := p) (pcfgs (F := F)) adm pdats lf.win lf.arr_whole c
      ((pdats p c).share_full (D.hq c)) (run_atRefs Vin c) (D.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [D.hrec c]; trivial)
      rw [D.howed c 0]; iexact HO
    isplitl [Hp]; · iexact Hp
    iexact Hrest
  hin c := by
    refine .trans ?_ (D.hin c); unfold Pipeline.ΦA
    iintro ⟨Hp, -, Hr⟩
    isplitl [Hr]; · iexact Hr
    iexact Hp
  hout c := by
    rw [Pipeline.ownSems0_none]
    refine (D.hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (D.hq c))
      (run_atRefs Vin c) (run_atRefs Vout c) ((pdats p c).arrAt · (cfgs p).N)
      (fun w => by
        by_cases hw : w = o
        · subst hw; exact (D.ho c).symm.trans (hx c).symm
        · rw [(pdats p c).arrAt_in w (hio w hw).1, D.hA c w]; exact (hV c _ (hio w hw).2).symm)
      (fun b hb => hV c b fun hm => hb (by
        rw [List.mem_singleton] at hm; subst hm; exact Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [D.howed c (Fin.last _)]; iexact HO

set_option backward.isDefEq.respectTransparency.types false in
-- The program's items, whatever the four loops' segments.
theorem run_progs (m : (ℓ : Loc nD τ sig) → Buf (Elt F) ℓ) (outs : Gen.Outs (F := F))
    (R0 : run_Seg pdats 0) (R1 : run_Seg pdats 1)
    (R2 : run_Seg pdats 2) (R3 : run_Seg pdats 3) (c : Dev nD) :
    (segs m outs Variants.none run_noPairs run_noLevel (fun _ c => run_rest c) () pdats R0 R1 R2 R3 c).map Seg.prog =
      [StableHlo.seq hostOps0, StableHlo.seq hostOps0_1, StableHlo.seq hostOps0_2, StableHlo.seq hostOps0_3, StableHlo.seq hostOps0_4, Prog.lift (.customCall (Pipeline.entry 0) ()), StableHlo.seq hostOps1, StableHlo.seq hostOps1_1, StableHlo.seq hostOps1_2, StableHlo.seq hostOps1_3, StableHlo.seq hostOps1_4, Prog.lift (.customCall (Pipeline.entry 1) ()), StableHlo.seq hostOps2, StableHlo.seq hostOps2_1, StableHlo.seq hostOps2_2, StableHlo.seq hostOps2_3, StableHlo.seq hostOps2_4, Prog.lift (.customCall (Pipeline.entry 2) ()), StableHlo.seq hostOps3, StableHlo.seq hostOps3_1, StableHlo.seq hostOps3_2, StableHlo.seq hostOps3_3, StableHlo.seq hostOps3_4, Prog.lift (.customCall (Pipeline.entry 3) ())] := rfl

set_option backward.isDefEq.respectTransparency.types false in
-- The program's items in turn: every fair run from `m` ends with every long-lived buffer at the last valuation.
theorem run_main_of (m : (ℓ : Loc nD τ sig) → Buf (Elt F) ℓ) (ρ : Dev nD → PrngReg) (outs : Gen.Outs (F := F))
    (D0 : RegionData pdats 0 (Gen.V5 m) (10 : Fin 11) (outs 6 main_v38))
    (D1 : RegionData pdats 1 (Gen.V11 m outs) (10 : Fin 11) (outs 12 main_v74))
    (D2 : RegionData pdats 2 (Gen.V17 m outs) (10 : Fin 11) (outs 18 main_v110))
    (D3 : RegionData pdats 3 (Gen.V23 m outs) (6 : Fin 7) (outs 24 main_v118)) :
    θ_run defs (onTc (τ := τ) (main (F := F))) ⟨m, fun _ => 0, ρ⟩ (fun r => ∀ c : Dev nD, ∀ b ∈ Pipeline.ucRefs τ sig,
      r.2.mem (((c : Dev nD).tc : Thread nD τ).1, b) = Gen.V24 m outs c b) := by
  refine Pipeline.θ_run_regions_kit_dev (pcfgs (F := F)) adm pdats () cellOf_inj emb₁ defs₀ Variants.none run_noPairs run_noLevel m ρ main
    (segs m outs Variants.none run_noPairs run_noLevel (fun _ c => run_rest c) () pdats
      (run_regionOf pdats launch0 (Gen.V6 m outs) D0 run_onlyOuts.1 (Gen.V6_of m outs) fun _ => Function.update_self ..)
      (run_regionOf pdats launch1 (Gen.V12 m outs) D1 run_onlyOuts.2.1 (Gen.V12_of m outs) fun _ => Function.update_self ..)
      (run_regionOf pdats launch2 (Gen.V18 m outs) D2 run_onlyOuts.2.2.1 (Gen.V18_of m outs) fun _ => Function.update_self ..)
      (run_regionOf pdats launch3 (Gen.V24 m outs) D3 run_onlyOuts.2.2.2 (Gen.V24_of m outs) fun _ => Function.update_self ..))
    (fun c Q => by rewrite [main_chain c, Seg.run_eq_chain, run_progs]; exact .rfl)
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ run_rest c))
    (Tₙ := fun c => StableHlo.held (c : Thread nD τ) (Pipeline.ucRefs τ sig) (V24 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := Pipeline.initEach run_noPairs run_noLevel fun c => ?_)
    (QY := fun c s => ∀ b ∈ Pipeline.ucRefs τ sig, s.mem (((c : Dev nD).tc : Thread nD τ).1, b) = Gen.V24 m outs c b)
    (hfin := fun c s' => ?_) (hQ := fun _ h => h)
  · rw [ownU_emb₁, BI.bigSep_emp_const]; iintro Hu; imodintro
    isplitl [Hu]; · iexact Hu
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    imodintro
    iapply (pointsTo_read_all (Pipeline.ucRefs τ sig) (fun b => (((c : Dev nD).tc : Thread nD τ).1, b)) (Gen.V24 m outs c) s')
    isplitl [Hh] <;> iassumption

end Cert.KernelIdeal.Hand

end
-- ==== Proof.KI.Outs.lean ====
import proofs.«423486_j42142219108934_1_alg».proof.Proof.Gen.KernelIdeal.Regions

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

variable (a0 : (c : Dev nD) → Buf (Elt F) ((c : Thread nD τ).loc main_v38)) (a1 b1 : (c : Dev nD) → Buf (Elt F) ((c : Thread nD τ).loc main_v74))
    (a2 b2 : (c : Dev nD) → Buf (Elt F) ((c : Thread nD τ).loc main_v110)) (a3 b3 : (c : Dev nD) → Buf (Elt F) ((c : Thread nD τ).loc main_v118))

-- The family that holds `a0`, `a1`, `a2`, `a3` at the four loops' output buffers and the launch contents elsewhere.
def mkOuts : Gen.Outs (F := F) :=
  fun _ r c =>
    if h0 : r = main_v38 then h0 ▸ a0 c
    else if h1 : r = main_v74 then h1 ▸ a1 c
    else if h2 : r = main_v110 then h2 ▸ a2 c
    else if h3 : r = main_v118 then h3 ▸ a3 c
    else m ((c : Thread nD τ).loc r)

theorem mkOuts_38 (n : ℕ) (c : Dev nD) : mkOuts m a0 a1 a2 a3 n main_v38 c = a0 c := by
  unfold mkOuts; rw [dif_pos rfl]
theorem mkOuts_74 (n : ℕ) (c : Dev nD) : mkOuts m a0 a1 a2 a3 n main_v74 c = a1 c := by
  unfold mkOuts; rw [dif_neg (by decide), dif_pos rfl]
theorem mkOuts_110 (n : ℕ) (c : Dev nD) : mkOuts m a0 a1 a2 a3 n main_v110 c = a2 c := by
  unfold mkOuts; rw [dif_neg (by decide), dif_neg (by decide), dif_pos rfl]
theorem mkOuts_118 (n : ℕ) (c : Dev nD) : mkOuts m a0 a1 a2 a3 n main_v118 c = a3 c := by
  unfold mkOuts; rw [dif_neg (by decide), dif_neg (by decide), dif_neg (by decide), dif_pos rfl]

-- The valuation a loop is entered at reads the family only at the earlier loops' outputs.
theorem V11_mk : Gen.V11 m (mkOuts m a0 a1 a2 a3) = Gen.V11 m (mkOuts m a0 b1 b2 b3) := by
  funext c; unfold Gen.V11 Gen.V10 Gen.V9 Gen.V8 Gen.V7 Gen.V6; rw [mkOuts_38, mkOuts_38]
theorem V17_mk : Gen.V17 m (mkOuts m a0 a1 a2 a3) = Gen.V17 m (mkOuts m a0 a1 b2 b3) := by
  funext c; unfold Gen.V17 Gen.V16 Gen.V15 Gen.V14 Gen.V13 Gen.V12; rw [mkOuts_74, mkOuts_74, V11_mk m a0 a1 a1 a2 b2 a3 b3]
theorem V23_mk : Gen.V23 m (mkOuts m a0 a1 a2 a3) = Gen.V23 m (mkOuts m a0 a1 a2 b3) := by
  funext c; unfold Gen.V23 Gen.V22 Gen.V21 Gen.V20 Gen.V19 Gen.V18; rw [mkOuts_110, mkOuts_110, V17_mk m a0 a1 a2 a2 a3 b3]

theorem V24_118 (outs : Gen.Outs (F := F)) (c : Dev nD) : Gen.V24 m outs c main_v118 = outs 24 main_v118 c :=
  Function.update_self ..

end Cert.KernelIdeal.Hand

end
-- ==== Proof.KI.Mlp0.lean ====
import proofs.«423486_j42142219108934_1_alg».proof.Proof.Gen.KernelIdeal.Launch
import proofs.«423486_j42142219108934_1_alg».proof.Proof.Gen.KernelIdeal.Skeleton
import proofs.«423486_j42142219108934_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S5888x128 := Rect.unit (s := S5888x128) ![0, 0] S5888x128.size inb_S5888x128_S5888x128_0_0
abbrev r0_w : Rect S128x128 := Rect.unit (s := S128x128) ![0, 0] S128x128.size inb_S128x128_S128x128_0_0
abbrev r0_v : Rect S1x128 := Rect.unit (s := S1x128) ![0, 0] S1x128.size inb_S1x128_S1x128_0_0

def out0_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k0_pay1 (k0_pay2 (View.ld x0 r0_big) (View.ld x1 r0_big) (View.ld x2 r0_w) (View.ld x3 r0_v) (View.ld x6 r0_v) (View.ld x7 r0_v) (View.ld x4 r0_v) (View.ld x5 r0_v)) (k0_pay3 (View.ld x8 r0_w)) (View.ld x9 r0_v)⟩]

set_option maxHeartbeats 1000000 in
-- a single piece tiling the whole shape: every index reads that piece's payload
theorem sound_kernel0 (c : Dev nD) (E : Set ℕ) (i : grid0.Coords) (arg1 : Memref sig .tc .vmem S5888x128 .f32) (harg1 : arg1.IsWhole) (arg2 : Memref sig .tc .vmem S5888x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5888x128 .f32) (harg11 : arg11.IsWhole)
    (x0 x1 : Vec F S5888x128 .f32) (x2 : Vec F S128x128 .f32) (x3 x4 x5 x6 x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_layer_kernel i arg1 harg1 arg2 harg2 arg3 harg3 arg4 harg4 arg5 harg5 arg6 harg6 arg7 harg7 arg8 harg8 arg9 harg9 arg10 harg10 arg11 harg11) K := by
  simp only [cc0__mlp_layer_kernel_eq_skeleton]; unfold cc0__mlp_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (View.cover_of_tiled _ S5888x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

-- for w ≠ 10, `before w` and `after w` are both the block of the entry array
theorem before0 (c : Dev nD) (w : Fin 11) (hw : w ≠ 10) (t : Fin cfg0.N) (d) :
    (dat0 V c).before w t d = (dat0 V c).after w t := by
  fin_cases w <;> first
    | exact absurd rfl hw
    | exact (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp (disch := decide) only [before0 V c]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  iframe H0 H1 H2 H3 H4 H5 H6 H7 H8 H9
  isplitl [H10]; · iexists _; iexact H10
  iintro ⟨H0, H1, H2, H3, H4, H5, H6, H7, H8, H9, H10⟩
  iframe
  iexact Ho

end Cert.KernelIdeal.Hand
-- ==== Proof.KI.Mlp1.lean ====
import proofs.«423486_j42142219108934_1_alg».proof.Proof.Gen.KernelIdeal.Launch
import proofs.«423486_j42142219108934_1_alg».proof.Proof.Gen.KernelIdeal.Skeleton
import proofs.«423486_j42142219108934_1_alg».proof.Proof.Gen.KernelIdeal.Points
import proofs.«423486_j42142219108934_1_alg».proof.Proof.KI.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k1_pay1 (k1_pay2 (View.ld x0 r0_big) (View.ld x1 r0_big) (View.ld x2 r0_w) (View.ld x3 r0_v) (View.ld x6 r0_v) (View.ld x7 r0_v) (View.ld x4 r0_v) (View.ld x5 r0_v)) (k1_pay3 (View.ld x8 r0_w)) (View.ld x9 r0_v)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

-- for w ≠ 10, `before w` and `after w` are both the block of the entry array
theorem before1 (c : Dev nD) (w : Fin 11) (hw : w ≠ 10) (t : Fin cfg1.N) (d) :
    (dat1 V c).before w t d = (dat1 V c).after w t := by
  fin_cases w <;> first
    | exact absurd rfl hw
    | exact (Dat.before_in_eq_fetched _ _ rfl (fun _ => rfl) (fun _ _ _ => rfl) (fun _ => rfl) t d).trans rfl

-- region 1's block program is region 0's
theorem cc1_eq : cc1__mlp_layer_kernel (F := F) = cc0__mlp_layer_kernel (F := F) := rfl

theorem body_obligation1 (c : Dev nD) : BodyObligation (dat1 (F := F) V c) (defs₀ (F := F)) Variants.none () Set.univ := fun t => by
  rw [bigSep_W1, bigSep_W1]
  simp (disch := decide) only [before1 V c]
  dsimp only [dat1]
  change _ ⊢ wp _ _ _ (bodyAt1 t) _
  rw [bodyAt1, cc1_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  iframe H0 H1 H2 H3 H4 H5 H6 H7 H8 H9
  isplitl [H10]; · iexists _; iexact H10
  iintro ⟨H0, H1, H2, H3, H4, H5, H6, H7, H8, H9, H10⟩
  iframe
  isplitl [Ho]; · iexact Ho
  iexact H10

end Cert.KernelIdeal.Hand
-- ==== Proof.KI.Mlp2.lean ====
import proofs.«423486_j42142219108934_1_alg».proof.Proof.Gen.KernelIdeal.Launch
import proofs.«423486_j42142219108934_1_alg».proof.Proof.Gen.KernelIdeal.Skeleton
import proofs.«423486_j42142219108934_1_alg».proof.Proof.Gen.KernelIdeal.Points
import proofs.«423486_j42142219108934_1_alg».proof.Proof.KI.Mlp0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_10 (x0 x1 : Vec F S5888x128 .f32) (x2 : Vec F S128x128 .f32) (x3 x4 x5 x6 x7 : Vec F S1x128 .f32) (x8 : Vec F S128x128 .f32) (x9 : Vec F S1x128 .f32) : Vec F S5888x128 .f32 :=
  View.canon [⟨r0_big, k2_pay1 (k2_pay2 (View.ld x0 r0_big) (View.ld x1 r0_big) (View.ld x2 r0_w) (View.ld x3 r0_v) (View.ld x6 r0_v) (View.ld x7 r0_v) (View.ld x4 r0_v) (View.ld x5 r0_v)) (k2_pay3 (View.ld x8 r0_w)) (View.ld x9 r0_v)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := rfl

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

-- for w ≠ 10, `before w` and `after w` are both the block of the entry array
theorem before2 (c : Dev nD) (w : Fin 11) (hw : w ≠ 10) (t : Fin cfg2.N) (d) :
    (dat2 V c).before w t d = (dat2 V c).after w t := by
  fin_cases w <;> first
    | exact absurd rfl hw
    | exact (Dat.before_in_eq_fetched _ _ rfl (fun _ => rfl) (fun _ _ _ => rfl) (fun _ => rfl) t d).trans rfl

-- region 2's block program is region 0's
theorem cc2_eq : cc2__mlp_layer_kernel (F := F) = cc0__mlp_layer_kernel (F := F) := rfl

theorem body_obligation2 (c : Dev nD) : BodyObligation (dat2 (F := F) V c) (defs₀ (F := F)) Variants.none () Set.univ := fun t => by
  rw [bigSep_W2, bigSep_W2]
  simp (disch := decide) only [before2 V c]
  dsimp only [dat2]
  change _ ⊢ wp _ _ _ (bodyAt2 t) _
  rw [bodyAt2, cc2_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  iframe H0 H1 H2 H3 H4 H5 H6 H7 H8 H9
  isplitl [H10]; · iexists _; iexact H10
  iintro ⟨H0, H1, H2, H3, H4, H5, H6, H7, H8, H9, H10⟩
  iframe
  isplitl [Ho]; · iexact Ho
  iexact H10

end Cert.KernelIdeal.Hand
-- ==== Proof.KI.PoolRuns.lean ====
import proofs.«423486_j42142219108934_1_alg».proof.Proof.Gen.KernelIdeal.Launch
import proofs.«423486_j42142219108934_1_alg».proof.Proof.Gen.KernelIdeal.Skeleton
import proofs.«423486_j42142219108934_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hz3 : (![0, 0] : Fin 2 → ℕ) = fun _ => 0 := by funext a; fin_cases a <;> rfl

-- Reading through a whole view is a bijection, so owning it at `X` is owning its cells at the preimage of `X`.
theorem owns_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Val := Elt F) (Ix := Unit) (Name := ℕ) (U := UR sig nD τ) (Lvl := ℕ) (c : Thread nD τ) m q (h.unread X)
  rw [h.read_unread] at h₂
  exact BI.equiv_iff.mp ⟨h₁, h₂⟩

variable (c : Dev nD) (i : grid3.Coords) (arg1 : Memref sig .tc .vmem S5888x128 .f32) (harg1 : arg1.IsWhole) (arg2 : Memref sig .tc .vmem S1x5888 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256 .f32) (harg9 : arg9.IsWhole)
variable (x0 : Vec F S5888x128 .f32) (x1 : Vec F S1x5888 .i32) (x2 : Vec F S128x128 .f32) (x3 : Vec F S1x128 .f32) (x4 : Vec F S1x128 .f32) (x5 : Vec F S1x128 .f32)

-- The six operand blocks at `x0 … x5`, beside `R`: every kind of row block returns them as found.
abbrev ins3 (R : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ R)

set_option maxHeartbeats 4000000 in
-- The first row block: the accumulators restart from zero whatever they held.
theorem run3_first (hc0 : cond3_0 i) (hc1 : ¬cond3_1 i)
    (xi6 : Vec F S256x128 .f32) (E : Set ℕ) (K : PUnit → sProp 𝕄) :
    ins3 c arg1 arg2 arg3 arg4 arg5 arg6 x0 x1 x2 x3 x4 x5 iprop(owns (c : Thread nD τ) arg7 fullShare xi6 ∗ (∃ d, owns (c : Thread nD τ) arg8 fullShare d) ∗ (∃ d, owns (c : Thread nD τ) arg9 fullShare d)
        ∗ (ins3 c arg1 arg2 arg3 arg4 arg5 arg6 x0 x1 x2 x3 x4 x5 iprop(owns (c : Thread nD τ) arg7 fullShare xi6
            ∗ owns (c : Thread nD τ) arg8 fullShare (k3_pay4 x1 x0 k3_pay1)
            ∗ owns (c : Thread nD τ) arg9 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [owns_unread c harg1, owns_unread c harg2, owns_unread c harg3, owns_unread c harg4, owns_unread c harg5, owns_unread c harg6, owns_unread c harg7]
  unfold owns
  iintro ⟨H0, H1, H2, H3, H4, H5, H6, ⟨%ds0, %fs0, -, HS0⟩, ⟨%ds1, %fs1, -, HS1⟩, Hk⟩
  sl_exec (disch := first | exact hc0 | exact hc1)
  sl_step
  iapply Hk
  iframe H0 H1 H2 H3 H4 H5 H6
  isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_cons_unit_zero (S := S256x128) hz3]
    | rw [View.read_writes_eq_canon _ _ _ (fun y => ⟨_, List.mem_cons.mpr (Or.inl rfl), View.mem_set_unit_zero hz3 inb_S1x256_S1x256_0_0 y⟩), View.canon_cons_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

set_option maxHeartbeats 4000000 in
-- A row block in between: the running sums are read, the block's contribution added, the sums stored back.
theorem run3_mid (hc0 : ¬cond3_0 i) (hc1 : ¬cond3_1 i)
    (xi6 : Vec F S256x128 .f32) (xs0 : Vec F S256x128 .f32) (xs1 : Vec F S1x256 .f32) (E : Set ℕ) (K : PUnit → sProp 𝕄) :
    ins3 c arg1 arg2 arg3 arg4 arg5 arg6 x0 x1 x2 x3 x4 x5 iprop(owns (c : Thread nD τ) arg7 fullShare xi6 ∗ owns (c : Thread nD τ) arg8 fullShare xs0 ∗ owns (c : Thread nD τ) arg9 fullShare xs1
        ∗ (ins3 c arg1 arg2 arg3 arg4 arg5 arg6 x0 x1 x2 x3 x4 x5 iprop(owns (c : Thread nD τ) arg7 fullShare xi6
            ∗ owns (c : Thread nD τ) arg8 fullShare (k3_pay4 x1 x0 xs0)
            ∗ owns (c : Thread nD τ) arg9 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [owns_unread c harg1, owns_unread c harg2, owns_unread c harg3, owns_unread c harg4, owns_unread c harg5, owns_unread c harg6, owns_unread c harg7]
  unfold owns
  iintro ⟨H0, H1, H2, H3, H4, H5, H6, ⟨%fs0, %hfs0, HS0⟩, ⟨%fs1, %hfs1, HS1⟩, Hk⟩
  obtain rfl := harg8.eq_unread hfs0; obtain rfl := harg9.eq_unread hfs1
  sl_exec (disch := first | exact hc0 | exact hc1)
  sl_step
  iapply Hk
  iframe H0 H1 H2 H3 H4 H5 H6
  isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_unit_zero (S := S256x128) hz3]
    | rw [View.read_writes_eq_canon _ _ _ (fun y => ⟨_, List.mem_cons.mpr (Or.inl rfl), View.mem_set_unit_zero hz3 inb_S1x256_S1x256_0_0 y⟩), View.canon_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

set_option maxHeartbeats 4000000 in
-- The last row block: after the addition the output block is stored whole from the finished sums and counts.
theorem run3_last (hc0 : ¬cond3_0 i) (hc1 : cond3_1 i)
    (xs0 : Vec F S256x128 .f32) (xs1 : Vec F S1x256 .f32) (E : Set ℕ) (K : PUnit → sProp 𝕄) :
    ins3 c arg1 arg2 arg3 arg4 arg5 arg6 x0 x1 x2 x3 x4 x5 iprop((∃ d, owns (c : Thread nD τ) arg7 fullShare d) ∗ owns (c : Thread nD τ) arg8 fullShare xs0 ∗ owns (c : Thread nD τ) arg9 fullShare xs1
        ∗ (ins3 c arg1 arg2 arg3 arg4 arg5 arg6 x0 x1 x2 x3 x4 x5 iprop(owns (c : Thread nD τ) arg7 fullShare (k3_pay6 (k3_pay5 x1 xs1) (k3_pay4 x1 x0 xs0) x2 x3 x4 x5)
            ∗ owns (c : Thread nD τ) arg8 fullShare (k3_pay4 x1 x0 xs0)
            ∗ owns (c : Thread nD τ) arg9 fullShare (k3_pay5 x1 xs1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9) K := by
  unfold ins3
  simp only [cc3__pool_kernel_eq_skeleton]; unfold cc3__pool_kernel_skel
  simp only [k3_part1_eq_skeleton]
  simp only [owns_unread c harg1, owns_unread c harg2, owns_unread c harg3, owns_unread c harg4, owns_unread c harg5, owns_unread c harg6]
  unfold owns
  iintro ⟨H0, H1, H2, H3, H4, H5, ⟨%d6, %f6, -, H6⟩, ⟨%fs0, %hfs0, HS0⟩, ⟨%fs1, %hfs1, HS1⟩, Hk⟩
  obtain rfl := harg8.eq_unread hfs0; obtain rfl := harg9.eq_unread hfs1
  sl_exec (disch := first | exact hc0 | exact hc1)
  sl_step
  iapply Hk
  iframe H0 H1 H2 H3 H4 H5
  isplitl [H6]; swap; isplitl [HS0]
  all_goals (iexists _; isplitr; swap; iassumption; ipureintro; sl_unfold_run_names)
  all_goals first
    | rw [View.read_writes_eq_canon _ _ _ (fun y => ⟨_, List.mem_cons.mpr (Or.inl rfl), View.mem_set_unit_zero hz3 inb_S256x128_S256x128_0_0 y⟩), View.canon_unit_zero (S := S256x128) hz3]
    | rw [View.read_writes_eq_canon _ _ _ (fun y => ⟨_, List.mem_cons.mpr (Or.inl rfl), View.mem_set_unit_zero hz3 inb_S1x256_S1x256_0_0 y⟩), View.canon_unit_zero (S := S1x256) hz3]
  all_goals simp only [View.readAt_eq_ld, harg1.read_unread, harg2.read_unread, harg3.read_unread, harg4.read_unread, harg5.read_unread, harg6.read_unread, harg8.read_unread, harg9.read_unread, View.ld_unit_zero (S := S1x5888) hz3, View.ld_unit_zero (S := S5888x128) hz3, View.ld_unit_zero (S := S256x128) hz3, View.ld_unit_zero (S := S1x256) hz3, View.ld_unit_zero (S := S128x128) hz3, View.ld_unit_zero (S := S1x128) hz3, View.readCov_unit_zero (S := S256x128) _ hz3, View.readCov_unit_zero (S := S1x256) _ hz3]

end Cert.KernelIdeal.Hand
end
-- ==== Proof.KI.Pool.lean ====
import proofs.«423486_j42142219108934_1_alg».proof.Proof.KI.PoolRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3_0 : Memref sig .tc .vmem S256x128 .f32 := Memref.whole cc3_scratch0
abbrev scM3_1 : Memref sig .tc .vmem S1x256 .f32 := Memref.whole cc3_scratch1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 16 :=
  (by decide +kernel : ∀ t : Fin grid3.N, cond3_1 (grid3.coords t) ↔ t.val = 16)

theorem idleAt3_6 : ∀ t : Fin cfg3.N, t.val ≠ 16 → cfg3.idle 6 (grid3.coords t) = true ∧ (cfg3.win 6).flush t = false := by decide +kernel
theorem liveAt3_6 : ∀ t : Fin cfg3.N, t.val = 16 → cfg3.idle 6 (grid3.coords t) = false := by decide +kernel

theorem N3 : cfg3.N = 17 := N_3

-- The sums and counts after row block `n`: the block's contribution added to what the block before left, or to zeros.
def accAt3 (c : Dev nD) : (n : ℕ) → n < cfg3.N → Vec F S256x128 .f32 × Vec F S1x256 .f32
  | 0, hn => (k3_pay4 (iblk3 V c 1 ⟨0, hn⟩) (iblk3 V c 0 ⟨0, hn⟩) k3_pay1, k3_pay5 (iblk3 V c 1 ⟨0, hn⟩) k3_pay2)
  | n + 1, hn => (k3_pay4 (iblk3 V c 1 ⟨n + 1, hn⟩) (iblk3 V c 0 ⟨n + 1, hn⟩) (accAt3 c n (Nat.lt_of_succ_lt hn)).1,
      k3_pay5 (iblk3 V c 1 ⟨n + 1, hn⟩) (accAt3 c n (Nat.lt_of_succ_lt hn)).2)

theorem accAt3_zero (c : Dev nD) (h0 : 0 < cfg3.N) :
    accAt3 V c 0 h0 = (k3_pay4 (iblk3 V c 1 ⟨0, h0⟩) (iblk3 V c 0 ⟨0, h0⟩) k3_pay1, k3_pay5 (iblk3 V c 1 ⟨0, h0⟩) k3_pay2) := rfl

theorem accAt3_succ (c : Dev nD) (n : ℕ) (hn : n + 1 < cfg3.N) :
    accAt3 V c (n + 1) hn = (k3_pay4 (iblk3 V c 1 ⟨n + 1, hn⟩) (iblk3 V c 0 ⟨n + 1, hn⟩) (accAt3 V c n (Nat.lt_of_succ_lt hn)).1,
      k3_pay5 (iblk3 V c 1 ⟨n + 1, hn⟩) (accAt3 V c n (Nat.lt_of_succ_lt hn)).2) := rfl

theorem lt16_3 : 16 < cfg3.N := by rw [N3]; omega

def out3_6 (c : Dev nD) : Vec F S256x128 .f32 :=
  k3_pay6 (accAt3 V c 16 lt16_3).2 (accAt3 V c 16 lt16_3).1 (iblk3 V c 2 ⟨16, lt16_3⟩) (iblk3 V c 3 ⟨16, lt16_3⟩) (iblk3 V c 4 ⟨16, lt16_3⟩) (iblk3 V c 5 ⟨16, lt16_3⟩)

theorem out3_6_eq (c : Dev nD) :
    out3_6 V c = k3_pay6 (accAt3 V c 16 lt16_3).2 (accAt3 V c 16 lt16_3).1 (iblk3 V c 2 ⟨16, lt16_3⟩) (iblk3 V c 3 ⟨16, lt16_3⟩) (iblk3 V c 4 ⟨16, lt16_3⟩) (iblk3 V c 5 ⟨16, lt16_3⟩) := rfl

-- The loop's state between row blocks: the two accumulators hold `p`.
def acc3 (c : Dev nD) (p : Vec F S256x128 .f32 × Vec F S1x256 .f32) : sProp 𝕄 :=
  iprop(iprop(iprop(owns (c : Thread nD τ) scM3_0 fullShare p.1 ∗ owns (c : Thread nD τ) scM3_1 fullShare p.2)
      ∗ Pipeline.scopedRestBut (Ix := Unit) (Name := ℕ) (U := UR sig nD τ) (Lvl := ℕ) (Val := Elt F) spec3 c [cc3_scratch0, cc3_scratch1])
    ∗ (∃ r, prngReg c r))

def Phi3 (c : Dev nD) : (n : ℕ) → n ≤ cfg3.N → sProp 𝕄
  | 0, _ => Pipeline.ΦA spec3 c
  | n + 1, hn => acc3 c (accAt3 V c n hn)

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 V c := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

theorem accAt3_pos (c : Dev nD) (t : Fin cfg3.N) (ht : t.val ≠ 0) :
    accAt3 V c t.val t.isLt = (k3_pay4 (iblk3 V c 1 t) (iblk3 V c 0 t) (accAt3 V c (t.val - 1) (Nat.lt_of_le_of_lt (Nat.sub_le _ _) t.isLt)).1,
      k3_pay5 (iblk3 V c 1 t) (accAt3 V c (t.val - 1) (Nat.lt_of_le_of_lt (Nat.sub_le _ _) t.isLt)).2) := by
  obtain ⟨n, hn⟩ := t
  cases n with
  | zero => exact absurd rfl ht
  | succ n => rfl

theorem accAt3_first (c : Dev nD) (t : Fin cfg3.N) (ht : t.val = 0) :
    accAt3 V c t.val t.isLt = (k3_pay4 (iblk3 V c 1 t) (iblk3 V c 0 t) k3_pay1, k3_pay5 (iblk3 V c 1 t) k3_pay2) := by
  obtain ⟨n, hn⟩ := t
  obtain rfl : n = 0 := ht
  rfl

theorem out3_6_at (c : Dev nD) (t : Fin cfg3.N) (ht : t.val = 16) :
    out3_6 V c = k3_pay6 (accAt3 V c t.val t.isLt).2 (accAt3 V c t.val t.isLt).1 (iblk3 V c 2 t) (iblk3 V c 3 t) (iblk3 V c 4 t) (iblk3 V c 5 t) := by
  obtain ⟨n, hn⟩ := t
  obtain rfl : n = 16 := ht
  rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = acc3 c (accAt3 V c (n - 1) (by omega)) := by
  cases n with
  | zero => exact absurd rfl hz
  | succ n => rfl

abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
abbrev ms3_6 (t : Fin cfg3.N) := win3_6.stage (cfg3.slots t 6)
abbrev hs3_6 (t : Fin cfg3.N) : (ms3_6 t).IsWhole := hstage3_6 ((cfg3.slots t 6).cast nbuf3_6)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop(acc3 c (accAt3 V c t.val t.isLt) ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ (dat3 V c).leavesExact 6 t)

set_option maxHeartbeats 4800000 in
-- Each operand block comes back as found; the accumulators advance by one block; the output block is stored at the last block only.
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.castSucc = Phi3 V c t.val (Nat.le_of_lt t.isLt) from rfl]
  by_cases h0 : t.val = 0
  · have h1 : t.val ≠ 16 := by omega
    rw [Dat.leavesExact_idle _ 6 t (idleAt3_6 t h1).1 (idleAt3_6 t h1).2, accAt3_first V c t h0, Phi3_zero V c _ _ h0, PhiA3_eq]
    unfold acc3; dsimp only
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run3_first c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) ((hcond3_0 t).mpr h0) (fun h => h1 ((hcond3_1 t).mp h)) ((dat3 V c).before 6 t d6) Set.univ _)
    unfold ins3
    iframe H0 H1 H2 H3 H4 H5 H6 HS0 HS1
    iintro ⟨H0, H1, H2, H3, H4, H5, H6, HS0, HS1⟩
    iframe HS0 HS1 Hrest Hg Ho H0 H1 H2 H3 H4 H5
    iexists _; iexact H6
  · by_cases h1 : t.val = 16
    · rw [show (dat3 V c).leavesExact 6 t = owns (c : Thread nD τ) (ms3_6 t) fullShare ((dat3 V c).after 6 t) from by
        unfold Dat.leavesExact; rw [liveAt3_6 t h1], after3_6, out3_6_at V c t h1, accAt3_pos V c t h0, Phi3_pos V c _ _ h0]
      generalize accAt3 V c (t.val - 1) _ = p
      unfold acc3; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_last c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) (fun h => h0 ((hcond3_0 t).mp h)) ((hcond3_1 t).mpr h1) p.1 p.2 Set.univ _)
      unfold ins3
      iframe H0 H1 H2 H3 H4 H5 HS0 HS1
      isplitl [H6]; · iexists _; iexact H6
      iintro ⟨H0, H1, H2, H3, H4, H5, H6, HS0, HS1⟩
      iframe HS0 HS1 Hrest Hg Ho H0 H1 H2 H3 H4 H5 H6
    · rw [Dat.leavesExact_idle _ 6 t (idleAt3_6 t h1).1 (idleAt3_6 t h1).2, accAt3_pos V c t h0, Phi3_pos V c _ _ h0]
      generalize accAt3 V c (t.val - 1) _ = p
      unfold acc3; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_mid c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (iblk3 V c 5 t) (fun h => h0 ((hcond3_0 t).mp h)) (fun h => h1 ((hcond3_1 t).mp h)) ((dat3 V c).before 6 t d6) p.1 p.2 Set.univ _)
      unfold ins3
      iframe H0 H1 H2 H3 H4 H5 H6 HS0 HS1
      iintro ⟨H0, H1, H2, H3, H4, H5, H6, HS0, HS1⟩
      iframe HS0 HS1 Hrest Hg Ho H0 H1 H2 H3 H4 H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

-- After the last row block the accumulators' contents are forgotten.
theorem hout3 (c : Dev nD) : (dat3 V c).Φ (Fin.last cfg3.N) ⊢ (Pipeline.ΦA spec3 c : sProp 𝕄) := by
  rw [show (dat3 V c).Φ (Fin.last cfg3.N) = Phi3 V c cfg3.N le_rfl from rfl, Phi3_pos V c cfg3.N le_rfl (by rw [N3]; omega), PhiA3_eq]
  unfold acc3
  iintro ⟨⟨⟨HS0, HS1⟩, Hrest⟩, Hg⟩
  iframe Hrest Hg
  isplitl [HS0] <;> (iexists _; iassumption)

end Cert.KernelIdeal.Hand
end
-- ==== Proof.KI.Main.lean ====
import proofs.«423486_j42142219108934_1_alg».proof.Proof.KI.Run
import proofs.«423486_j42142219108934_1_alg».proof.Proof.KI.Outs
import proofs.«423486_j42142219108934_1_alg».proof.Proof.KI.Mlp0
import proofs.«423486_j42142219108934_1_alg».proof.Proof.KI.Mlp1
import proofs.«423486_j42142219108934_1_alg».proof.Proof.KI.Mlp2
import proofs.«423486_j42142219108934_1_alg».proof.Proof.KI.Pool

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

-- Each loop's output is named from the valuation it is entered at, which reads only the earlier loops' outputs.
def a0 (c : Dev nD) : Buf (Elt F) ((c : Thread nD τ).loc main_v38) :=
  (dat0 (run_atRefs (Gen.V5 m)) c).arrAt (10 : Fin 11) cfg0.N
def outsA : Gen.Outs (F := F) := mkOuts m (a0 m) (fun c => m ((c : Thread nD τ).loc main_v74)) (fun c => m ((c : Thread nD τ).loc main_v110)) (fun c => m ((c : Thread nD τ).loc main_v118))
def a1 (c : Dev nD) : Buf (Elt F) ((c : Thread nD τ).loc main_v74) :=
  (dat1 (run_atRefs (Gen.V11 m (outsA m))) c).arrAt (10 : Fin 11) cfg1.N
def outsB : Gen.Outs (F := F) := mkOuts m (a0 m) (a1 m) (fun c => m ((c : Thread nD τ).loc main_v110)) (fun c => m ((c : Thread nD τ).loc main_v118))
def a2 (c : Dev nD) : Buf (Elt F) ((c : Thread nD τ).loc main_v110) :=
  (dat2 (run_atRefs (Gen.V17 m (outsB m))) c).arrAt (10 : Fin 11) cfg2.N
def outsC : Gen.Outs (F := F) := mkOuts m (a0 m) (a1 m) (a2 m) (fun c => m ((c : Thread nD τ).loc main_v118))
def a3 (c : Dev nD) : Buf (Elt F) ((c : Thread nD τ).loc main_v118) :=
  (dat3 (run_atRefs (Gen.V23 m (outsC m))) c).arrAt (6 : Fin 7) cfg3.N
def outs : Gen.Outs (F := F) := mkOuts m (a0 m) (a1 m) (a2 m) (a3 m)

theorem outs_38 (c : Dev nD) : outs m 6 main_v38 c = a0 m c := mkOuts_38 m _ _ _ _ 6 c
theorem outs_74 (c : Dev nD) : outs m 12 main_v74 c = a1 m c := mkOuts_74 m _ _ _ _ 12 c
theorem outs_110 (c : Dev nD) : outs m 18 main_v110 c = a2 m c := mkOuts_110 m _ _ _ _ 18 c

theorem a1_eq (c : Dev nD) : a1 m c = (dat1 (run_atRefs (Gen.V11 m (outs m))) c).arrAt (10 : Fin 11) cfg1.N := by
  rw [show Gen.V11 m (outs m) = Gen.V11 m (outsA m) from V11_mk m ..]; rfl
theorem a2_eq (c : Dev nD) : a2 m c = (dat2 (run_atRefs (Gen.V17 m (outs m))) c).arrAt (10 : Fin 11) cfg2.N := by
  rw [show Gen.V17 m (outs m) = Gen.V17 m (outsB m) from V17_mk m ..]; rfl
theorem a3_eq (c : Dev nD) : a3 m c = (dat3 (run_atRefs (Gen.V23 m (outs m))) c).arrAt (6 : Fin 7) cfg3.N := by
  rw [show Gen.V23 m (outs m) = Gen.V23 m (outsC m) from V23_mk m ..]; rfl

def pdats : (p : Fin 4) → (c : Dev nD) → Dat τ (Elt F) Unit ℕ (UR sig nD τ) ℕ (cfgs p) c
  | ⟨0, _⟩ => fun c => dat0 (run_atRefs (Gen.V5 m)) c
  | ⟨1, _⟩ => fun c => dat1 (run_atRefs (Gen.V11 m (outs m))) c
  | ⟨2, _⟩ => fun c => dat2 (run_atRefs (Gen.V17 m (outs m))) c
  | ⟨3, _⟩ => fun c => dat3 (run_atRefs (Gen.V23 m (outs m))) c

theorem run_main (ρ : Dev nD → PrngReg) :
    θ_run defs (onTc (τ := τ) (main (F := F))) ⟨m, fun _ => 0, ρ⟩ (fun r => ∀ c : Dev nD, ∀ b ∈ Pipeline.ucRefs τ sig,
      r.2.mem (((c : Dev nD).tc : Thread nD τ).1, b) = Gen.V24 m (outs m) c b) :=
  run_main_of (pdats m) m ρ (outs m)
    ⟨fun c => body_obligation0 _ c, fun _ _ => rfl, fun _ _ => rfl, fun _ => rfl, fun _ => .rfl, fun _ => .rfl, fun c w => A_eq0 _ c w, outs_38 m⟩
    ⟨fun c => body_obligation1 _ c, fun _ _ => rfl, fun _ _ => rfl, fun _ => rfl, fun _ => .rfl, fun _ => .rfl, fun c w => A_eq1 _ c w,
      fun c => (outs_74 m c).trans (a1_eq m c)⟩
    ⟨fun c => body_obligation2 _ c, fun _ _ => rfl, fun _ _ => rfl, fun _ => rfl, fun _ => .rfl, fun _ => .rfl, fun c w => A_eq2 _ c w,
      fun c => (outs_110 m c).trans (a2_eq m c)⟩
    ⟨fun c => body_obligation3 _ c, fun _ _ => rfl, fun _ _ => rfl, fun _ => rfl, fun c => hin3 _ c, fun c => hout3 _ c, fun c w => A_eq3 _ c w,
      fun c => (mkOuts_118 m _ _ _ _ 24 c).trans (a3_eq m c)⟩

-- No item writes an argument array, so each is read off the last valuation as launched.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    refine ⟨?_, ?_, ?_, ?_, ?_, ?_, ?_, ?_, ?_, ?_, ?_, ?_, ?_, ?_, ?_⟩ <;>
      refine (h c _ (Finset.mem_filter.mpr ⟨StableHlo.devRef_mem_tcRefs _, by decide⟩)).trans ?_
    exacts [Gen.V24_main_arg0 m _ c, Gen.V24_main_arg1 m _ c, Gen.V24_main_arg2 m _ c, Gen.V24_main_arg3 m _ c, Gen.V24_main_arg4 m _ c, Gen.V24_main_arg5 m _ c, Gen.V24_main_arg6 m _ c, Gen.V24_main_arg7 m _ c, Gen.V24_main_arg8 m _ c, Gen.V24_main_arg9 m _ c, Gen.V24_main_arg10 m _ c, Gen.V24_main_arg11 m _ c, Gen.V24_main_arg12 m _ c, Gen.V24_main_arg13 m _ c, Gen.V24_main_arg14 m _ c]) (run_main m ρ)

theorem result_eq (c : Dev nD) : Gen.V24 m (outs m) c main_v118 = a3 m c :=
  (V24_118 m _ c).trans (mkOuts_118 m _ _ _ _ 24 c)

end Cert.KernelIdeal.Hand

end
-- ==== Proof.LibRowOps.lean ====
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

-- An update lands at i exactly when start plus window coordinate is i's coordinate on every operand axis.
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hh
      have h1 := congrArg Fin.val (congrFun (Option.some.inj h) a)
      simp only at h1
      have := hh a
      omega
    · exact absurd h (by simp)
  · intro h
    rw [dif_pos fun a => by have := h a; have := (i a).isLt; omega]
    congr 1; funext a; apply Fin.ext; simp only; have := h a; omega

abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ := ⟨[1], [0], [0], 1, wf⟩

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

section
variable {N E W : Nat} (wf : ScatterDims.WF ⟨2, ![N, W]⟩ ⟨2, ![E, 1]⟩ ⟨2, ![E, W]⟩ [1] [0] [0] 1)
  (wf1 : ScatterDims.WF ⟨1, ![N]⟩ ⟨2, ![E, 1]⟩ ⟨1, ![E]⟩ [] [0] [0] 1) (idx : IVec ⟨2, ![E, 1]⟩ 32)

-- Row e's update lands on the row its index word names, read signed; the column is kept.
theorem rows_lands (e : Fin E) (j' : Fin W) (i : Fin N) (j : Fin W) :
    (rowsScatter N E W wf).resultIdx? (ix2 e j') idx = some (ix2 i j) ↔ (idx (ix2 e 0)).toInt = (i.val : ℤ) ∧ j' = j := by
  have s0 : (rowsScatter N E W wf).start (ix2 e j') idx 0 = (idx (ix2 e 0)).toInt := by
    unfold ScatterDims.start
    rw [dif_pos (show (0 : Fin (⟨2, ![N, W]⟩ : Shape).rank) ∈ (rowsScatter N E W wf).scatterDimsToOperandDims from List.mem_singleton.mpr rfl)]
    congr 2
    funext b; refine Fin.ext ?_
    match b with
    | ⟨0, _⟩ => rfl
    | ⟨1, _⟩ => rfl
  have s1 : (rowsScatter N E W wf).start (ix2 e j') idx 1 = 0 := by
    unfold ScatterDims.start
    rw [dif_neg (show ¬ (1 : Fin (⟨2, ![N, W]⟩ : Shape).rank) ∈ (rowsScatter N E W wf).scatterDimsToOperandDims from
      fun h => absurd (List.mem_singleton.mp h) (show (1 : Fin 2) ≠ 0 by decide))]
  have w0 : (rowsScatter N E W wf).window (ix2 e j') 0 = 0 := by
    unfold ScatterDims.window
    rw [dif_neg (by simp [ScatterDims.sKept, Shape.kept, List.mem_filter])]
  have w1 : (rowsScatter N E W wf).window (ix2 e j') 1 = j'.val := by
    unfold ScatterDims.window
    rw [dif_pos (by simp [ScatterDims.sKept, Shape.kept, List.mem_filter])]
    rfl
  rw [resultIdx?_eq_some_iff, Fin.forall_fin_two, s0, s1, w0, w1, Fin.ext_iff]
  show _ + ((0 : ℕ) : ℤ) = (i.val : ℤ) ∧ (0 : ℤ) + ((j'.val : ℕ) : ℤ) = (j.val : ℤ) ↔ _
  omega

theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [Finset.sum_filter, sum_idx2]
  refine congrArg _ (Finset.sum_congr rfl fun e _ => ?_)
  simp only [rows_lands wf']
  by_cases h : (idx (ix2 e 0)).toInt = (i.val : ℤ)
  · simp only [h, true_and, if_true, Finset.sum_ite_eq', Finset.mem_univ]
  · simp only [h, false_and, if_false, Finset.sum_const_zero]

-- The same at rank 1: update e lands at the position its index word names.
theorem vec_lands (e : Fin E) (i : Fin N) :
    (vecScatter N E wf1).resultIdx? (ix1 e) idx = some (ix1 i) ↔ (idx (ix2 e 0)).toInt = (i.val : ℤ) := by
  have s0 : (vecScatter N E wf1).start (ix1 e) idx 0 = (idx (ix2 e 0)).toInt := by
    unfold ScatterDims.start
    rw [dif_pos (show (0 : Fin (⟨1, ![N]⟩ : Shape).rank) ∈ (vecScatter N E wf1).scatterDimsToOperandDims from List.mem_singleton.mpr rfl)]
    congr 2
    funext b; refine Fin.ext ?_
    match b with
    | ⟨0, _⟩ => rfl
    | ⟨1, _⟩ => rfl
  have w0 : (vecScatter N E wf1).window (ix1 e) 0 = 0 := by
    unfold ScatterDims.window
    rw [dif_neg (by simp [ScatterDims.sKept, Shape.kept, List.mem_filter])]
  rw [resultIdx?_eq_some_iff, Fin.forall_fin_one, s0, w0]
  show _ + ((0 : ℕ) : ℤ) = (i.val : ℤ) ↔ _
  omega

theorem scatterAdd_vec_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ 32) (upd : (⟨1, ![E]⟩ : Shape).Idx → EReal) (i : Fin N) :
    Ideal.hostScatterAdd d x idx upd (ix1 i)
      = x (ix1 i) + ∑ e : Fin E, (if (idx (ix2 e 0)).toInt = (i.val : ℤ) then upd (ix1 e) else 0) := by
  obtain ⟨uw, iw, sd, iv, wf'⟩ := d
  dsimp only at h1 h2 h3 h4
  subst h1 h2 h3 h4
  unfold Ideal.hostScatterAdd
  rw [Finset.sum_filter, ← Equiv.sum_comp (idxEquiv1 (n := E)).symm]
  refine congrArg _ (Finset.sum_congr rfl fun e _ => ?_)
  show (if (vecScatter N E wf').resultIdx? (ix1 e) idx = some (ix1 i) then upd (ix1 e) else 0) = _
  simp only [vec_lands]

end

def clampRow (N : Nat) (hN : 0 < N) (v : BitVec 32) : Fin N := ⟨min v.toInt.toNat (N - 1), by omega⟩

abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ := ⟨[1], [0], [], [], [0], 1, ![1, W], wf⟩

-- Result row e of a row gather is the operand row its index word names, read signed and clamped into range.
theorem rows_operandIdx {N E W : Nat} (wf : GatherDims.WF ⟨2, ![N, W]⟩ ⟨2, ![E, 1]⟩ ⟨2, ![E, W]⟩ [1] [0] [] [0] [] 1 ![1, W])
    (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  exact congrArg a (rows_operandIdx wf' hN idx e j)

end Idealize.ShloMosaic.RowOps

end
-- ==== Proof.GinSpec.lean ====
import Idealize.ShloMosaic.PureOps.Ideal
import Idealize.ShloMosaic.Lib.ValueIdx
import proofs.«423486_j42142219108934_1_alg».proof.Proof.LibRowOps

noncomputable section

open scoped BigOperators

namespace GinSpec

open Idealize.ShloMosaic Idealize.ShloMosaic.ValueIdx

abbrev Rows := Fin 100000 → Fin 128 → EReal

abbrev eps : EReal := Ideal.ofBits .f32 0x3727C5AC#32

abbrev c128 : EReal := Ideal.ofBits .f32 0x43000000#32

abbrev cOne : EReal := Ideal.ofBits .f32 0x3F800000#32

def normWord (w : BitVec 32) : BitVec 32 :=
  Scalar.select (IntOp.cmpi .slt w 0#32) (IntOp.addi w 100000#32) w

def agg (h : Rows) (srcN dst : Fin 1600000 → BitVec 32) : Rows := fun i j =>
  ∑ e : Fin 1600000, (if (dst e).toInt = (i.val : ℤ) then h (RowOps.clampRow 100000 (by norm_num) (srcN e)) j else 0)

def mlpRow (z : Fin 128 → EReal) (W1 : Fin 128 → Fin 128 → EReal) (b1 g b mu v : Fin 128 → EReal)
    (W2 : Fin 128 → Fin 128 → EReal) (b2 : Fin 128 → EReal) (j : Fin 128) : EReal :=
  max ((∑ k : Fin 128,
      max (((((∑ k' : Fin 128, z k' * W1 k' k) + b1 k) - mu k) * Ideal.rsqrt (v k + eps)) * g k + b k) 0 * W2 k j) + b2 j) 0

def layer (h a : Rows) (W1 : Fin 128 → Fin 128 → EReal) (b1 g b mu v : Fin 128 → EReal)
    (W2 : Fin 128 → Fin 128 → EReal) (b2 : Fin 128 → EReal) : Rows := fun r j =>
  mlpRow (fun k => h r k + a r k) W1 b1 g b mu v W2 b2 j

def count (batch : Fin 100000 → BitVec 32) (g : Fin 256) : EReal :=
  ∑ e : Fin 100000, (if (batch e).toInt = (g.val : ℤ) then cOne else 0)

def pooledSum (h : Rows) (batch : Fin 100000 → BitVec 32) (g : Fin 256) (j : Fin 128) : EReal :=
  ∑ e : Fin 100000, (if (batch e).toInt = (g.val : ℤ) then h e j else 0)

def pooledMean (h : Rows) (batch : Fin 100000 → BitVec 32) (g : Fin 256) (j : Fin 128) : EReal :=
  Ideal.div (pooledSum h batch g j) (max (count batch g) cOne)

def proj (q : Fin 256 → Fin 128 → EReal) (Wp : Fin 128 → Fin 128 → EReal) (bp : Fin 128 → EReal) (g : Fin 256) (j : Fin 128) : EReal :=
  (∑ k : Fin 128, q g k * Wp k j) + bp j

def rowMean (p : Fin 256 → Fin 128 → EReal) (g : Fin 256) : EReal := Ideal.div (∑ j : Fin 128, p g j) c128

def rowVar (p : Fin 256 → Fin 128 → EReal) (g : Fin 256) : EReal :=
  Ideal.div (∑ j : Fin 128, (p g j - rowMean p g) * (p g j - rowMean p g)) c128

def layerNorm (p : Fin 256 → Fin 128 → EReal) (gamma beta : Fin 128 → EReal) (g : Fin 256) (j : Fin 128) : EReal :=
  ((p g j - rowMean p g) * Ideal.rsqrt (rowVar p g + eps)) * gamma j + beta j

def head (h : Rows) (batch : Fin 100000 → BitVec 32) (Wp : Fin 128 → Fin 128 → EReal) (bp gamma beta : Fin 128 → EReal) :
    Fin 256 → Fin 128 → EReal :=
  layerNorm (proj (pooledMean h batch) Wp bp) gamma beta

def forward (x : Rows) (srcN dst : Fin 1600000 → BitVec 32) (batch : Fin 100000 → BitVec 32)
    (W1s : Fin 3 → Fin 128 → Fin 128 → EReal) (b1s gs bs mus vs : Fin 3 → Fin 128 → EReal)
    (W2s : Fin 3 → Fin 128 → Fin 128 → EReal) (b2s : Fin 3 → Fin 128 → EReal)
    (Wp : Fin 128 → Fin 128 → EReal) (bp gamma beta : Fin 128 → EReal) : Fin 256 → Fin 128 → EReal :=
  let h1 := layer x (agg x srcN dst) (W1s 0) (b1s 0) (gs 0) (bs 0) (mus 0) (vs 0) (W2s 0) (b2s 0)
  let h2 := layer h1 (agg h1 srcN dst) (W1s 1) (b1s 1) (gs 1) (bs 1) (mus 1) (vs 1) (W2s 1) (b2s 1)
  let h3 := layer h2 (agg h2 srcN dst) (W1s 2) (b1s 2) (gs 2) (bs 2) (mus 2) (vs 2) (W2s 2) (b2s 2)
  head h3 batch Wp bp gamma beta

def cur1 {α : Type} {n : Nat} (a : (⟨1, ![n]⟩ : Shape).Idx → α) : Fin n → α := fun i => a (ix1 i)

def cur2 {α : Type} {n0 n1 : Nat} (a : (⟨2, ![n0, n1]⟩ : Shape).Idx → α) : Fin n0 → Fin n1 → α := fun i j => a (ix2 i j)

def cur3 {α : Type} {n0 n1 n2 : Nat} (a : (⟨3, ![n0, n1, n2]⟩ : Shape).Idx → α) : Fin n0 → Fin n1 → Fin n2 → α :=
  fun i j k => a (ix3 i j k)

def arr2 {α : Type} {n0 n1 : Nat} (f : Fin n0 → Fin n1 → α) : (⟨2, ![n0, n1]⟩ : Shape).Idx → α := fun i => f (i 0) (i 1)

theorem arr2_ix2 {α : Type} {n0 n1 : Nat} (f : Fin n0 → Fin n1 → α) (i : Fin n0) (j : Fin n1) : arr2 f (ix2 i j) = f i j := rfl

theorem ext2 {α : Type} {n0 n1 : Nat} {a b : (⟨2, ![n0, n1]⟩ : Shape).Idx → α} (h : ∀ i j, a (ix2 i j) = b (ix2 i j)) : a = b := by
  funext y; rw [eq_ix2 y]; exact h _ _

def forwardArr (x : (⟨2, ![100000, 128]⟩ : Shape).Idx → EReal) (ei : (⟨2, ![2, 1600000]⟩ : Shape).Idx → BitVec 32)
    (batch : (⟨1, ![100000]⟩ : Shape).Idx → BitVec 32)
    (W1s : (⟨3, ![3, 128, 128]⟩ : Shape).Idx → EReal) (b1s gs bs mus vs : (⟨2, ![3, 128]⟩ : Shape).Idx → EReal)
    (W2s : (⟨3, ![3, 128, 128]⟩ : Shape).Idx → EReal) (b2s : (⟨2, ![3, 128]⟩ : Shape).Idx → EReal)
    (Wp : (⟨2, ![128, 128]⟩ : Shape).Idx → EReal) (bp gamma beta : (⟨1, ![128]⟩ : Shape).Idx → EReal) :
    (⟨2, ![256, 128]⟩ : Shape).Idx → EReal :=
  arr2 (forward (cur2 x) (fun e => normWord (ei (ix2 0 e))) (fun e => ei (ix2 1 e)) (cur1 batch)
    (cur3 W1s) (cur2 b1s) (cur2 gs) (cur2 bs) (cur2 mus) (cur2 vs) (cur3 W2s) (cur2 b2s) (cur2 Wp) (cur1 bp) (cur1 gamma) (cur1 beta))

end GinSpec

end
-- ==== Proof.KI.MlpPay.lean ====
import proofs.«423486_j42142219108934_1_alg».proof.Proof.Gen.KernelIdeal.Skeleton
import proofs.«423486_j42142219108934_1_alg».proof.Proof.GinSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx GinSpec

-- The contracted axis is the left factor's columns and the right factor's rows, so entry (p, q) is ∑ k, A p k * B k q.
theorem matmul_entry {φ₁ φ₂ : FTy} (A : FVec Ideal S5888x128 φ₁) (B : FVec Ideal S128x128 φ₂) (p : Fin 5888) (q : Fin 128) :
    matmul dot_S5888x128_S128x128_S5888x128_1_0_0_1_n_n none A B (constant (F := Ideal) S5888x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 dot_S5888x128_S128x128_S5888x128_1_0_0_1_n_n 128 rfl rfl).symm]
  refine Finset.sum_congr rfl fun c _ => ?_
  have hc := contrEquiv1_symm_val dot_S5888x128_S128x128_S5888x128_1_0_0_1_n_n 128 rfl rfl c
  rw [show dot_S5888x128_S128x128_S5888x128_1_0_0_1_n_n.lhsIdx (ix2 p q) ((contrEquiv1 dot_S5888x128_S128x128_S5888x128_1_0_0_1_n_n 128 rfl rfl).symm c) = ix2 p c from
      Shape.idx_ext₂ (by simp [DotDims.lhsIdx, dot_S5888x128_S128x128_S5888x128_1_0_0_1_n_n]; rfl) ((dot_S5888x128_S128x128_S5888x128_1_0_0_1_n_n.lhsIdx_val_of_single rfl _ _).trans hc),
    show dot_S5888x128_S128x128_S5888x128_1_0_0_1_n_n.rhsIdx (ix2 p q) ((contrEquiv1 dot_S5888x128_S128x128_S5888x128_1_0_0_1_n_n 128 rfl rfl).symm c) = ix2 c q from
      Shape.idx_ext₂ ((dot_S5888x128_S128x128_S5888x128_1_0_0_1_n_n.rhsIdx_val_of_single rfl _ _).trans hc) (by simp [DotDims.rhsIdx, dot_S5888x128_S128x128_S5888x128_1_0_0_1_n_n]; rfl)]

theorem hidden0_entry (v0 v2 : Vec Ideal S5888x128 .f32) (v6 : Vec Ideal S128x128 .f32)
    (v10 v14 v18 v25 v29 : Vec Ideal S1x128 .f32) (p : Fin 5888) (k : Fin 128) :
    k0_pay2 (F := Ideal) v0 v2 v6 v10 v14 v18 v25 v29 (ix2 p k)
      = max (((((∑ k' : Fin 128, (v0 (ix2 p k') + v2 (ix2 p k')) * v6 (ix2 k' k)) + v10 (ix2 0 k)) - v14 (ix2 0 k))
          * Ideal.rsqrt (v18 (ix2 0 k) + eps)) * v25 (ix2 0 k) + v29 (ix2 0 k)) 0 := by
  unfold k0_pay2
  simp only [shapeCast_self]
  rw [truncf_apply, maximumf_apply, addf_apply, mulf_apply, mulf_apply, subf_apply, addf_apply, matmul_entry,
    broadcastTo_1b_ab_apply, broadcastTo_1b_ab_apply, broadcastTo_1b_ab_apply, broadcastTo_1b_ab_apply,
    broadcastTo_1b_ab_apply, broadcast_apply]
  show max _ (Ideal.ofBits .f32 0x00000000#32) = _
  rw [Ideal.ofBits_zero_f32]
  rfl

theorem out0_entry (v35 : FVec Ideal S5888x128 .bf16) (v37 : FVec Ideal S128x128 .f32) (v40 : Vec Ideal S1x128 .f32)
    (p : Fin 5888) (q : Fin 128) :
    k0_pay1 (F := Ideal) v35 v37 v40 (ix2 p q)
      = max ((∑ k : Fin 128, v35 (ix2 p k) * v37 (ix2 k q)) + v40 (ix2 0 q)) 0 := by
  unfold k0_pay1
  simp only [shapeCast_self]
  rw [maximumf_apply, addf_apply, matmul_entry, broadcastTo_1b_ab_apply, broadcast_apply]
  show max _ (Ideal.ofBits .f32 0x00000000#32) = _
  rw [Ideal.ofBits_zero_f32]
  rfl

-- At the ideal values entry (p, q) of the block program's output is the perceptron of row p of h + agg at column q.
theorem pay0_apply (v0 v2 : Vec Ideal S5888x128 .f32) (v6 : Vec Ideal S128x128 .f32)
    (v10 v14 v18 v25 v29 : Vec Ideal S1x128 .f32) (v36 : Vec Ideal S128x128 .f32) (v40 : Vec Ideal S1x128 .f32)
    (p : Fin 5888) (q : Fin 128) :
    k0_pay1 (F := Ideal) (k0_pay2 v0 v2 v6 v10 v14 v18 v25 v29) (k0_pay3 v36) v40 (ix2 p q)
      = GinSpec.mlpRow (fun k => v0 (ix2 p k) + v2 (ix2 p k)) (cur2 v6) (fun k => v10 (ix2 0 k)) (fun k => v25 (ix2 0 k))
          (fun k => v29 (ix2 0 k)) (fun k => v14 (ix2 0 k)) (fun k => v18 (ix2 0 k)) (cur2 v36) (fun k => v40 (ix2 0 k)) q := by
  rw [out0_entry, show k0_pay3 (F := Ideal) v36 = v36 from shapeCast_self _ _]
  simp only [hidden0_entry]
  rfl

-- The second and third layers' block programs are the first's, term for term.
theorem k1_pay1_eq : @k1_pay1 Ideal _ = k0_pay1 := rfl
theorem k1_pay2_eq : @k1_pay2 Ideal _ = k0_pay2 := rfl
theorem k1_pay3_eq : @k1_pay3 Ideal = k0_pay3 := rfl
theorem k2_pay1_eq : @k2_pay1 Ideal _ = k0_pay1 := rfl
theorem k2_pay2_eq : @k2_pay2 Ideal _ = k0_pay2 := rfl
theorem k2_pay3_eq : @k2_pay3 Ideal = k0_pay3 := rfl

theorem zero2 : (![0, 0] : Fin 2 → ℕ) = fun _ => 0 := funext (by decide)

abbrev mlpG (fh fagg : S100096x128.Idx → EReal) (fW : S128x128.Idx → EReal) (fb fgam fbet fmu fvar : S1x128.Idx → EReal)
    (fU : S128x128.Idx → EReal) (fd : S1x128.Idx → EReal) : S100096x128.Idx → EReal := fun i =>
  mlpRow (fun k => fh (ix2 (i 0) k) + fagg (ix2 (i 0) k)) (cur2 fW) (fun k => fb (ix2 0 k)) (fun k => fgam (ix2 0 k))
    (fun k => fbet (ix2 0 k)) (fun k => fmu (ix2 0 k)) (fun k => fvar (ix2 0 k)) (cur2 fU) (fun k => fd (ix2 0 k)) (i 1)

-- An array read through an index map that keeps every coordinate is the array itself.
theorem read_fix {S : Shape} {α : Type} (A : S.Idx → α) (e : S.Idx → S.Idx) (h : ∀ y a, (e y a : ℕ) = y a) :
    (fun y => A (e y)) = A := funext fun y => congrArg A (funext fun a => Fin.ext (h y a))

-- On blocks whose row p is row i 0 of h and of agg, the block program's entry (p, i 1) is entry i of the perceptron.
theorem mlp_block (A0 A1 : S100096x128.Idx → EReal) (A2 : S128x128.Idx → EReal) (A3 A4 A5 A6 A7 : S1x128.Idx → EReal)
    (A8 : S128x128.Idx → EReal) (A9 : S1x128.Idx → EReal) (b0 b1 : S5888x128.Idx → EReal) (p : Fin 5888) (q : Fin 128)
    (i : S100096x128.Idx) (hq : i 1 = q) (h0 : ∀ k, b0 (ix2 p k) = A0 (ix2 (i 0) k)) (h1 : ∀ k, b1 (ix2 p k) = A1 (ix2 (i 0) k)) :
    k0_pay1 (F := Ideal) (k0_pay2 b0 b1 A2 A3 A6 A7 A4 A5) (k0_pay3 A8) A9 (ix2 p q) = mlpG A0 A1 A2 A3 A4 A5 A6 A7 A8 A9 i := by
  obtain ⟨r, q', rfl⟩ : ∃ (r : Fin 100096) (q' : Fin 128), i = ix2 r q' := ⟨i 0, i 1, eq_ix2 i⟩
  obtain rfl : q' = q := hq
  rw [pay0_apply]
  simp only [h0, h1]

end Cert.KernelIdeal.Hand

end
-- ==== Proof.KI.MlpArr0.lean ====
import proofs.«423486_j42142219108934_1_alg».proof.Proof.KI.Mlp0
import proofs.«423486_j42142219108934_1_alg».proof.Proof.KI.MlpPay
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev arr0_0 (c : Dev nD) : S100096x128.Idx → EReal := V c (Pipeline.arrRef spec0 0)
abbrev arr0_1 (c : Dev nD) : S100096x128.Idx → EReal := V c (Pipeline.arrRef spec0 1)
abbrev arr0_2 (c : Dev nD) : S128x128.Idx → EReal := V c (Pipeline.arrRef spec0 2)
abbrev arr0_3 (c : Dev nD) : S1x128.Idx → EReal := V c (Pipeline.arrRef spec0 3)
abbrev arr0_4 (c : Dev nD) : S1x128.Idx → EReal := V c (Pipeline.arrRef spec0 4)
abbrev arr0_5 (c : Dev nD) : S1x128.Idx → EReal := V c (Pipeline.arrRef spec0 5)
abbrev arr0_6 (c : Dev nD) : S1x128.Idx → EReal := V c (Pipeline.arrRef spec0 6)
abbrev arr0_7 (c : Dev nD) : S1x128.Idx → EReal := V c (Pipeline.arrRef spec0 7)
abbrev arr0_8 (c : Dev nD) : S128x128.Idx → EReal := V c (Pipeline.arrRef spec0 8)
abbrev arr0_9 (c : Dev nD) : S1x128.Idx → EReal := V c (Pipeline.arrRef spec0 9)

theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0) :=
  (by decide +kernel : ∀ t : Fin grid0.N, _)

-- The block of point t is row block t of the perceptron of the operand arrays.
theorem flushed0_eq (c : Dev nD) (t : Fin cfg0.N) :
    (dat0 (F := Ideal) V c).flushed 10 t = ((cfg0.win 10).blk t).view.read (Elt Ideal)
      (mlpG (arr0_0 V c) (arr0_1 V c) (arr0_2 V c) (arr0_3 V c) (arr0_4 V c) (arr0_5 V c) (arr0_6 V c) (arr0_7 V c) (arr0_8 V c) (arr0_9 V c)) := by
  obtain ⟨⟨ea, eb⟩, ⟨fa, fb⟩, ⟨ga, gb⟩, i2, i3, i4, i5, i6, i7, i8, i9⟩ := idx0 t
  show (cfg0.win 10).cut (grid0.coords t) ((dat0 (F := Ideal) V c).after 10 t) = _
  rw [after0_10,
    show iblk0 V c 2 t = arr0_2 V c from read_fix (arr0_2 V c) ((cfg0.win 2).blk t).view.emb fun y a => win0_2.rect_emb_val_of_index_zero t a (i2 a) y,
    show iblk0 V c 3 t = arr0_3 V c from read_fix (arr0_3 V c) ((cfg0.win 3).blk t).view.emb fun y a => win0_3.rect_emb_val_of_index_zero t a (i3 a) y,
    show iblk0 V c 4 t = arr0_4 V c from read_fix (arr0_4 V c) ((cfg0.win 4).blk t).view.emb fun y a => win0_4.rect_emb_val_of_index_zero t a (i4 a) y,
    show iblk0 V c 5 t = arr0_5 V c from read_fix (arr0_5 V c) ((cfg0.win 5).blk t).view.emb fun y a => win0_5.rect_emb_val_of_index_zero t a (i5 a) y,
    show iblk0 V c 6 t = arr0_6 V c from read_fix (arr0_6 V c) ((cfg0.win 6).blk t).view.emb fun y a => win0_6.rect_emb_val_of_index_zero t a (i6 a) y,
    show iblk0 V c 7 t = arr0_7 V c from read_fix (arr0_7 V c) ((cfg0.win 7).blk t).view.emb fun y a => win0_7.rect_emb_val_of_index_zero t a (i7 a) y,
    show iblk0 V c 8 t = arr0_8 V c from read_fix (arr0_8 V c) ((cfg0.win 8).blk t).view.emb fun y a => win0_8.rect_emb_val_of_index_zero t a (i8 a) y,
    show iblk0 V c 9 t = arr0_9 V c from read_fix (arr0_9 V c) ((cfg0.win 9).blk t).view.emb fun y a => win0_9.rect_emb_val_of_index_zero t a (i9 a) y]
  unfold out0_10
  rw [View.canon_unit_zero zero2]
  simp only [View.ld_unit_zero (S := S5888x128) zero2, View.ld_unit_zero (S := S128x128) zero2, View.ld_unit_zero (S := S1x128) zero2]
  funext y
  obtain ⟨p, q, rfl⟩ : ∃ (p : Fin 5888) (q : Fin 128), y = ix2 p q := ⟨y 0, y 1, eq_ix2 y⟩
  rw [View.read_apply]
  exact mlp_block (arr0_0 V c) (arr0_1 V c) _ _ _ _ _ _ _ _ _ _ p q (((cfg0.win 10).blk t).view.emb (ix2 p q))
    (Fin.ext (by show win0_10.index t (1 : Fin 2) * 128 + 1 * q.val = q.val; omega))
    (fun k => congrArg (V c _) (Shape.idx_ext₂
      (by show win0_0.index t (0 : Fin 2) * 5888 + 1 * p.val = win0_10.index t (0 : Fin 2) * 5888 + 1 * p.val; omega)
      (by show win0_0.index t (1 : Fin 2) * 128 + 1 * k.val = k.val; omega)))
    (fun k => congrArg (V c _) (Shape.idx_ext₂
      (by show win0_1.index t (0 : Fin 2) * 5888 + 1 * p.val = win0_10.index t (0 : Fin 2) * 5888 + 1 * p.val; omega)
      (by show win0_1.index t (1 : Fin 2) * 128 + 1 * k.val = k.val; omega)))

-- Row r of the output array lies in the block of point r / 5888.
theorem cover0 (i : S100096x128.Idx) :
    ∃ t : Fin cfg0.N, (cfg0.win 10).flush t = true ∧ i ∈ ((cfg0.win 10).blk t).view.set := by
  have hN : cfg0.N = 17 := N_0
  have hia := idx2_lt0 i
  have hib := idx2_lt1 i
  obtain ⟨t, ht⟩ : ∃ t : Fin cfg0.N, t.val = (i 0).val / 5888 := ⟨⟨(i 0).val / 5888, by omega⟩, rfl⟩
  obtain ⟨-, -, ⟨ea, eb⟩, -⟩ := idx0 t
  refine ⟨t, flush0_10 t, ?_⟩
  show i ∈ ((View.whole (Pipeline.arrRef spec0 10)).slice (win0_10.rect t)).set
  rw [View.set_slice_whole, Rect.mem_set_unit]
  intro a
  match a with
  | ⟨0, _⟩ => show win0_10.index t (0 : Fin 2) * 5888 ≤ (i 0).val ∧ (i 0).val < win0_10.index t (0 : Fin 2) * 5888 + 5888; omega
  | ⟨1, _⟩ => show win0_10.index t (1 : Fin 2) * 128 ≤ (i 1).val ∧ (i 1).val < win0_10.index t (1 : Fin 2) * 128 + 128; omega

theorem mlp0_arr (c : Dev nD) (r : Fin 100096) (j : Fin 128) :
    (dat0 (F := Ideal) V c).arrAt 10 cfg0.N (ix2 r j)
      = GinSpec.mlpRow (fun k => arr0_0 V c (ix2 r k) + arr0_1 V c (ix2 r k))
          (GinSpec.cur2 (arr0_2 V c)) (fun k => arr0_3 V c (ix2 0 k)) (fun k => arr0_4 V c (ix2 0 k)) (fun k => arr0_5 V c (ix2 0 k))
          (fun k => arr0_6 V c (ix2 0 k)) (fun k => arr0_7 V c (ix2 0 k)) (GinSpec.cur2 (arr0_8 V c)) (fun k => arr0_9 V c (ix2 0 k)) j :=
  congrFun ((dat0 (F := Ideal) V c).arrAt_eq_of_cover 10 _ (fun t _ => flushed0_eq V c t) cover0) (ix2 r j)

end Cert.KernelIdeal.Hand
-- ==== Proof.KI.MlpArr1.lean ====
import proofs.«423486_j42142219108934_1_alg».proof.Proof.KI.Mlp1
import proofs.«423486_j42142219108934_1_alg».proof.Proof.KI.MlpPay
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev arr1_0 (c : Dev nD) : S100096x128.Idx → EReal := V c (Pipeline.arrRef spec1 0)
abbrev arr1_1 (c : Dev nD) : S100096x128.Idx → EReal := V c (Pipeline.arrRef spec1 1)
abbrev arr1_2 (c : Dev nD) : S128x128.Idx → EReal := V c (Pipeline.arrRef spec1 2)
abbrev arr1_3 (c : Dev nD) : S1x128.Idx → EReal := V c (Pipeline.arrRef spec1 3)
abbrev arr1_4 (c : Dev nD) : S1x128.Idx → EReal := V c (Pipeline.arrRef spec1 4)
abbrev arr1_5 (c : Dev nD) : S1x128.Idx → EReal := V c (Pipeline.arrRef spec1 5)
abbrev arr1_6 (c : Dev nD) : S1x128.Idx → EReal := V c (Pipeline.arrRef spec1 6)
abbrev arr1_7 (c : Dev nD) : S1x128.Idx → EReal := V c (Pipeline.arrRef spec1 7)
abbrev arr1_8 (c : Dev nD) : S128x128.Idx → EReal := V c (Pipeline.arrRef spec1 8)
abbrev arr1_9 (c : Dev nD) : S1x128.Idx → EReal := V c (Pipeline.arrRef spec1 9)

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_10.index t (0 : Fin 2) = t.val ∧ win1_10.index t (1 : Fin 2) = 0)
    ∧ (∀ a, win1_2.index t a = 0) ∧ (∀ a, win1_3.index t a = 0) ∧ (∀ a, win1_4.index t a = 0) ∧ (∀ a, win1_5.index t a = 0) ∧ (∀ a, win1_6.index t a = 0) ∧ (∀ a, win1_7.index t a = 0) ∧ (∀ a, win1_8.index t a = 0) ∧ (∀ a, win1_9.index t a = 0) :=
  (by decide +kernel : ∀ t : Fin grid1.N, _)

-- The block of point t is row block t of the perceptron of the operand arrays.
theorem flushed1_eq (c : Dev nD) (t : Fin cfg1.N) :
    (dat1 (F := Ideal) V c).flushed 10 t = ((cfg1.win 10).blk t).view.read (Elt Ideal)
      (mlpG (arr1_0 V c) (arr1_1 V c) (arr1_2 V c) (arr1_3 V c) (arr1_4 V c) (arr1_5 V c) (arr1_6 V c) (arr1_7 V c) (arr1_8 V c) (arr1_9 V c)) := by
  obtain ⟨⟨ea, eb⟩, ⟨fa, fb⟩, ⟨ga, gb⟩, i2, i3, i4, i5, i6, i7, i8, i9⟩ := idx1 t
  show (cfg1.win 10).cut (grid1.coords t) ((dat1 (F := Ideal) V c).after 10 t) = _
  rw [after1_10,
    show iblk1 V c 2 t = arr1_2 V c from read_fix (arr1_2 V c) ((cfg1.win 2).blk t).view.emb fun y a => win1_2.rect_emb_val_of_index_zero t a (i2 a) y,
    show iblk1 V c 3 t = arr1_3 V c from read_fix (arr1_3 V c) ((cfg1.win 3).blk t).view.emb fun y a => win1_3.rect_emb_val_of_index_zero t a (i3 a) y,
    show iblk1 V c 4 t = arr1_4 V c from read_fix (arr1_4 V c) ((cfg1.win 4).blk t).view.emb fun y a => win1_4.rect_emb_val_of_index_zero t a (i4 a) y,
    show iblk1 V c 5 t = arr1_5 V c from read_fix (arr1_5 V c) ((cfg1.win 5).blk t).view.emb fun y a => win1_5.rect_emb_val_of_index_zero t a (i5 a) y,
    show iblk1 V c 6 t = arr1_6 V c from read_fix (arr1_6 V c) ((cfg1.win 6).blk t).view.emb fun y a => win1_6.rect_emb_val_of_index_zero t a (i6 a) y,
    show iblk1 V c 7 t = arr1_7 V c from read_fix (arr1_7 V c) ((cfg1.win 7).blk t).view.emb fun y a => win1_7.rect_emb_val_of_index_zero t a (i7 a) y,
    show iblk1 V c 8 t = arr1_8 V c from read_fix (arr1_8 V c) ((cfg1.win 8).blk t).view.emb fun y a => win1_8.rect_emb_val_of_index_zero t a (i8 a) y,
    show iblk1 V c 9 t = arr1_9 V c from read_fix (arr1_9 V c) ((cfg1.win 9).blk t).view.emb fun y a => win1_9.rect_emb_val_of_index_zero t a (i9 a) y]
  unfold out1_10
  rw [View.canon_unit_zero zero2, k1_pay1_eq, k1_pay2_eq, k1_pay3_eq]
  simp only [View.ld_unit_zero (S := S5888x128) zero2, View.ld_unit_zero (S := S128x128) zero2, View.ld_unit_zero (S := S1x128) zero2]
  funext y
  obtain ⟨p, q, rfl⟩ : ∃ (p : Fin 5888) (q : Fin 128), y = ix2 p q := ⟨y 0, y 1, eq_ix2 y⟩
  rw [View.read_apply]
  exact mlp_block (arr1_0 V c) (arr1_1 V c) _ _ _ _ _ _ _ _ _ _ p q (((cfg1.win 10).blk t).view.emb (ix2 p q))
    (Fin.ext (by show win1_10.index t (1 : Fin 2) * 128 + 1 * q.val = q.val; omega))
    (fun k => congrArg (V c _) (Shape.idx_ext₂
      (by show win1_0.index t (0 : Fin 2) * 5888 + 1 * p.val = win1_10.index t (0 : Fin 2) * 5888 + 1 * p.val; omega)
      (by show win1_0.index t (1 : Fin 2) * 128 + 1 * k.val = k.val; omega)))
    (fun k => congrArg (V c _) (Shape.idx_ext₂
      (by show win1_1.index t (0 : Fin 2) * 5888 + 1 * p.val = win1_10.index t (0 : Fin 2) * 5888 + 1 * p.val; omega)
      (by show win1_1.index t (1 : Fin 2) * 128 + 1 * k.val = k.val; omega)))

-- Row r of the output array lies in the block of point r / 5888.
theorem cover1 (i : S100096x128.Idx) :
    ∃ t : Fin cfg1.N, (cfg1.win 10).flush t = true ∧ i ∈ ((cfg1.win 10).blk t).view.set := by
  have hN : cfg1.N = 17 := N_1
  have hia := idx2_lt0 i
  have hib := idx2_lt1 i
  obtain ⟨t, ht⟩ : ∃ t : Fin cfg1.N, t.val = (i 0).val / 5888 := ⟨⟨(i 0).val / 5888, by omega⟩, rfl⟩
  obtain ⟨-, -, ⟨ea, eb⟩, -⟩ := idx1 t
  refine ⟨t, flush1_10 t, ?_⟩
  show i ∈ ((View.whole (Pipeline.arrRef spec1 10)).slice (win1_10.rect t)).set
  rw [View.set_slice_whole, Rect.mem_set_unit]
  intro a
  match a with
  | ⟨0, _⟩ => show win1_10.index t (0 : Fin 2) * 5888 ≤ (i 0).val ∧ (i 0).val < win1_10.index t (0 : Fin 2) * 5888 + 5888; omega
  | ⟨1, _⟩ => show win1_10.index t (1 : Fin 2) * 128 ≤ (i 1).val ∧ (i 1).val < win1_10.index t (1 : Fin 2) * 128 + 128; omega

theorem mlp1_arr (c : Dev nD) (r : Fin 100096) (j : Fin 128) :
    (dat1 (F := Ideal) V c).arrAt 10 cfg1.N (ix2 r j)
      = GinSpec.mlpRow (fun k => arr1_0 V c (ix2 r k) + arr1_1 V c (ix2 r k))
          (GinSpec.cur2 (arr1_2 V c)) (fun k => arr1_3 V c (ix2 0 k)) (fun k => arr1_4 V c (ix2 0 k)) (fun k => arr1_5 V c (ix2 0 k))
          (fun k => arr1_6 V c (ix2 0 k)) (fun k => arr1_7 V c (ix2 0 k)) (GinSpec.cur2 (arr1_8 V c)) (fun k => arr1_9 V c (ix2 0 k)) j :=
  congrFun ((dat1 (F := Ideal) V c).arrAt_eq_of_cover 10 _ (fun t _ => flushed1_eq V c t) cover1) (ix2 r j)

end Cert.KernelIdeal.Hand
-- ==== Proof.KI.MlpArr2.lean ====
import proofs.«423486_j42142219108934_1_alg».proof.Proof.KI.Mlp2
import proofs.«423486_j42142219108934_1_alg».proof.Proof.KI.MlpPay
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev arr2_0 (c : Dev nD) : S100096x128.Idx → EReal := V c (Pipeline.arrRef spec2 0)
abbrev arr2_1 (c : Dev nD) : S100096x128.Idx → EReal := V c (Pipeline.arrRef spec2 1)
abbrev arr2_2 (c : Dev nD) : S128x128.Idx → EReal := V c (Pipeline.arrRef spec2 2)
abbrev arr2_3 (c : Dev nD) : S1x128.Idx → EReal := V c (Pipeline.arrRef spec2 3)
abbrev arr2_4 (c : Dev nD) : S1x128.Idx → EReal := V c (Pipeline.arrRef spec2 4)
abbrev arr2_5 (c : Dev nD) : S1x128.Idx → EReal := V c (Pipeline.arrRef spec2 5)
abbrev arr2_6 (c : Dev nD) : S1x128.Idx → EReal := V c (Pipeline.arrRef spec2 6)
abbrev arr2_7 (c : Dev nD) : S1x128.Idx → EReal := V c (Pipeline.arrRef spec2 7)
abbrev arr2_8 (c : Dev nD) : S128x128.Idx → EReal := V c (Pipeline.arrRef spec2 8)
abbrev arr2_9 (c : Dev nD) : S1x128.Idx → EReal := V c (Pipeline.arrRef spec2 9)

theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_10.index t (0 : Fin 2) = t.val ∧ win2_10.index t (1 : Fin 2) = 0)
    ∧ (∀ a, win2_2.index t a = 0) ∧ (∀ a, win2_3.index t a = 0) ∧ (∀ a, win2_4.index t a = 0) ∧ (∀ a, win2_5.index t a = 0) ∧ (∀ a, win2_6.index t a = 0) ∧ (∀ a, win2_7.index t a = 0) ∧ (∀ a, win2_8.index t a = 0) ∧ (∀ a, win2_9.index t a = 0) :=
  (by decide +kernel : ∀ t : Fin grid2.N, _)

-- The block of point t is row block t of the perceptron of the operand arrays.
theorem flushed2_eq (c : Dev nD) (t : Fin cfg2.N) :
    (dat2 (F := Ideal) V c).flushed 10 t = ((cfg2.win 10).blk t).view.read (Elt Ideal)
      (mlpG (arr2_0 V c) (arr2_1 V c) (arr2_2 V c) (arr2_3 V c) (arr2_4 V c) (arr2_5 V c) (arr2_6 V c) (arr2_7 V c) (arr2_8 V c) (arr2_9 V c)) := by
  obtain ⟨⟨ea, eb⟩, ⟨fa, fb⟩, ⟨ga, gb⟩, i2, i3, i4, i5, i6, i7, i8, i9⟩ := idx2 t
  show (cfg2.win 10).cut (grid2.coords t) ((dat2 (F := Ideal) V c).after 10 t) = _
  rw [after2_10,
    show iblk2 V c 2 t = arr2_2 V c from read_fix (arr2_2 V c) ((cfg2.win 2).blk t).view.emb fun y a => win2_2.rect_emb_val_of_index_zero t a (i2 a) y,
    show iblk2 V c 3 t = arr2_3 V c from read_fix (arr2_3 V c) ((cfg2.win 3).blk t).view.emb fun y a => win2_3.rect_emb_val_of_index_zero t a (i3 a) y,
    show iblk2 V c 4 t = arr2_4 V c from read_fix (arr2_4 V c) ((cfg2.win 4).blk t).view.emb fun y a => win2_4.rect_emb_val_of_index_zero t a (i4 a) y,
    show iblk2 V c 5 t = arr2_5 V c from read_fix (arr2_5 V c) ((cfg2.win 5).blk t).view.emb fun y a => win2_5.rect_emb_val_of_index_zero t a (i5 a) y,
    show iblk2 V c 6 t = arr2_6 V c from read_fix (arr2_6 V c) ((cfg2.win 6).blk t).view.emb fun y a => win2_6.rect_emb_val_of_index_zero t a (i6 a) y,
    show iblk2 V c 7 t = arr2_7 V c from read_fix (arr2_7 V c) ((cfg2.win 7).blk t).view.emb fun y a => win2_7.rect_emb_val_of_index_zero t a (i7 a) y,
    show iblk2 V c 8 t = arr2_8 V c from read_fix (arr2_8 V c) ((cfg2.win 8).blk t).view.emb fun y a => win2_8.rect_emb_val_of_index_zero t a (i8 a) y,
    show iblk2 V c 9 t = arr2_9 V c from read_fix (arr2_9 V c) ((cfg2.win 9).blk t).view.emb fun y a => win2_9.rect_emb_val_of_index_zero t a (i9 a) y]
  unfold out2_10
  rw [View.canon_unit_zero zero2, k2_pay1_eq, k2_pay2_eq, k2_pay3_eq]
  simp only [View.ld_unit_zero (S := S5888x128) zero2, View.ld_unit_zero (S := S128x128) zero2, View.ld_unit_zero (S := S1x128) zero2]
  funext y
  obtain ⟨p, q, rfl⟩ : ∃ (p : Fin 5888) (q : Fin 128), y = ix2 p q := ⟨y 0, y 1, eq_ix2 y⟩
  rw [View.read_apply]
  exact mlp_block (arr2_0 V c) (arr2_1 V c) _ _ _ _ _ _ _ _ _ _ p q (((cfg2.win 10).blk t).view.emb (ix2 p q))
    (Fin.ext (by show win2_10.index t (1 : Fin 2) * 128 + 1 * q.val = q.val; omega))
    (fun k => congrArg (V c _) (Shape.idx_ext₂
      (by show win2_0.index t (0 : Fin 2) * 5888 + 1 * p.val = win2_10.index t (0 : Fin 2) * 5888 + 1 * p.val; omega)
      (by show win2_0.index t (1 : Fin 2) * 128 + 1 * k.val = k.val; omega)))
    (fun k => congrArg (V c _) (Shape.idx_ext₂
      (by show win2_1.index t (0 : Fin 2) * 5888 + 1 * p.val = win2_10.index t (0 : Fin 2) * 5888 + 1 * p.val; omega)
      (by show win2_1.index t (1 : Fin 2) * 128 + 1 * k.val = k.val; omega)))

-- Row r of the output array lies in the block of point r / 5888.
theorem cover2 (i : S100096x128.Idx) :
    ∃ t : Fin cfg2.N, (cfg2.win 10).flush t = true ∧ i ∈ ((cfg2.win 10).blk t).view.set := by
  have hN : cfg2.N = 17 := N_2
  have hia := idx2_lt0 i
  have hib := idx2_lt1 i
  obtain ⟨t, ht⟩ : ∃ t : Fin cfg2.N, t.val = (i 0).val / 5888 := ⟨⟨(i 0).val / 5888, by omega⟩, rfl⟩
  obtain ⟨-, -, ⟨ea, eb⟩, -⟩ := idx2 t
  refine ⟨t, flush2_10 t, ?_⟩
  show i ∈ ((View.whole (Pipeline.arrRef spec2 10)).slice (win2_10.rect t)).set
  rw [View.set_slice_whole, Rect.mem_set_unit]
  intro a
  match a with
  | ⟨0, _⟩ => show win2_10.index t (0 : Fin 2) * 5888 ≤ (i 0).val ∧ (i 0).val < win2_10.index t (0 : Fin 2) * 5888 + 5888; omega
  | ⟨1, _⟩ => show win2_10.index t (1 : Fin 2) * 128 ≤ (i 1).val ∧ (i 1).val < win2_10.index t (1 : Fin 2) * 128 + 128; omega

theorem mlp2_arr (c : Dev nD) (r : Fin 100096) (j : Fin 128) :
    (dat2 (F := Ideal) V c).arrAt 10 cfg2.N (ix2 r j)
      = GinSpec.mlpRow (fun k => arr2_0 V c (ix2 r k) + arr2_1 V c (ix2 r k))
          (GinSpec.cur2 (arr2_2 V c)) (fun k => arr2_3 V c (ix2 0 k)) (fun k => arr2_4 V c (ix2 0 k)) (fun k => arr2_5 V c (ix2 0 k))
          (fun k => arr2_6 V c (ix2 0 k)) (fun k => arr2_7 V c (ix2 0 k)) (GinSpec.cur2 (arr2_8 V c)) (fun k => arr2_9 V c (ix2 0 k)) j :=
  congrFun ((dat2 (F := Ideal) V c).arrAt_eq_of_cover 10 _ (fun t _ => flushed2_eq V c t) cover2) (ix2 r j)

end Cert.KernelIdeal.Hand
-- ==== Proof.LibAgg.lean ====
import Idealize.ShloMosaic.Lib.ValueLayout
import Idealize.ShloMosaic.Lib.KernelVsHost
import Idealize.ShloMosaic.Lib.IdealHost
import proofs.«423486_j42142219108934_1_alg».proof.Proof.LibRowOps
import proofs.«423486_j42142219108934_1_alg».proof.Proof.GinSpec

noncomputable section

open scoped BigOperators

namespace GinSpec

open Idealize.ShloMosaic Idealize.ShloMosaic.ValueIdx

theorem rowVec_apply {α : Type} {n m : Nat} (l : Nat) (hl : l < n) (X : (⟨2, ![n, m]⟩ : Shape).Idx → α)
    (hs : (⟨2, ![n, m]⟩ : Shape).Slices ![l, 0] ⟨2, ![1, m]⟩) (hc : (⟨2, ![1, m]⟩ : Shape).ShapeCasts ⟨1, ![m]⟩) (k : Fin m) :
    shapeCast ⟨1, ![m]⟩ (extractStridedSlice ⟨2, ![1, m]⟩ ![l, 0] X hs) hc (ix1 k) = X (ix2 ⟨l, hl⟩ k) :=
  (shapeCast_1a_a_apply _ hc k).trans (slice2_axis0_apply l X hs 0 k ⟨l, hl⟩ rfl)

theorem rowVec_asRow_apply {α : Type} {n m : Nat} (l : Nat) (hl : l < n) (X : (⟨2, ![n, m]⟩ : Shape).Idx → α)
    (hs : (⟨2, ![n, m]⟩ : Shape).Slices ![l, 0] ⟨2, ![1, m]⟩) (hc : (⟨2, ![1, m]⟩ : Shape).ShapeCasts ⟨1, ![m]⟩)
    (hc' : (⟨1, ![m]⟩ : Shape).ShapeCasts ⟨2, ![1, m]⟩) (u : Fin 1) (k : Fin m) :
    shapeCast ⟨2, ![1, m]⟩ (shapeCast ⟨1, ![m]⟩ (extractStridedSlice ⟨2, ![1, m]⟩ ![l, 0] X hs) hc) hc' (ix2 u k)
      = X (ix2 ⟨l, hl⟩ k) :=
  (shapeCast_a_1a_apply _ hc' u k).trans (rowVec_apply l hl X hs hc k)

theorem slab_apply {α : Type} {n a b : Nat} (l : Nat) (hl : l < n) (W : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![l, 0, 0] W hs) hc (ix2 p q) = W (ix3 ⟨l, hl⟩ p q) :=
  (shapeCast_1ab_ab_apply _ hc p q).trans
    (extractStridedSlice_apply _ W hs _ _ (fun ax => by
      match ax with
      | ⟨0, _⟩ => rfl
      | ⟨1, _⟩ => exact (Nat.zero_add _).symm
      | ⟨2, _⟩ => exact (Nat.zero_add _).symm))

-- The coordinate a broadcast keeps on an axis of extent n: 0 if n = 1, else the coordinate itself; both are k.
theorem val_eq_ite {n : Nat} (k : Fin n) : k.val = if n = 1 then 0 else k.val := by
  have := k.isLt
  split <;> omega

theorem vecAsRow_apply {α : Type} {m : Nat} (hb : (⟨1, ![m]⟩ : Shape).BroadcastsInDim ⟨2, ![1, m]⟩ ![1])
    (v : (⟨1, ![m]⟩ : Shape).Idx → α) (u : Fin 1) (k : Fin m) :
    broadcastInDim ⟨2, ![1, m]⟩ ![1] hb v (ix2 u k) = v (ix1 k) :=
  broadcastInDim_apply _ hb v _ _ (fun ax => by match ax with | ⟨0, _⟩ => exact val_eq_ite k)

theorem vecAsCol_apply {α : Type} {n : Nat} (hb : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] hb v (ix2 e u) = v (ix1 e) :=
  broadcastInDim_apply _ hb v _ _ (fun ax => by match ax with | ⟨0, _⟩ => exact val_eq_ite e)

theorem padRows_apply {α : Type} {n m N : Nat} (p : Nat) (x : (⟨2, ![n, m]⟩ : Shape).Idx → α)
    (z : (⟨0, ![]⟩ : Shape).Idx → α) (hp : (⟨2, ![n, m]⟩ : Shape).Pads ![0, 0] ![p, 0] ![0, 0] ⟨2, ![N, m]⟩)
    (hu : 0 < (⟨0, ![]⟩ : Shape).numel) (r : Fin N) (k : Fin m) :
    pad ⟨2, ![N, m]⟩ ![0, 0] ![p, 0] ![0, 0] x z hp hu (ix2 r k)
      = if h : r.val < n then x (ix2 ⟨r.val, h⟩ k) else z ix0 := by
  by_cases h : r.val < n
  · rw [dif_pos h]
    refine pad_apply_of_inside _ _ _ x z hp hu _ _ (fun ax => ?_)
    match ax with
    | ⟨0, _⟩ => show r.val = 0 + r.val * (0 + 1); omega
    | ⟨1, _⟩ => show k.val = 0 + k.val * (0 + 1); omega
  · rw [dif_neg h]
    refine (pad_apply_of_not_inside _ _ _ x z hp hu _ (0 : Fin 2) ?_).trans (congrArg z (eq_ix0 _))
    show ¬ (0 ≤ r.val ∧ (r.val - 0) % (0 + 1) = 0 ∧ (r.val - 0) / (0 + 1) < n)
    exact fun hh => h (by simpa using hh.2.2)

theorem headRows_apply {α : Type} {n m N : Nat} (y : (⟨2, ![N, m]⟩ : Shape).Idx → α)
    (hs : (⟨2, ![N, m]⟩ : Shape).Slices ![0, 0] ⟨2, ![n, m]⟩) (hnN : n ≤ N) (r : Fin n) (k : Fin m) :
    extractStridedSlice ⟨2, ![n, m]⟩ ![0, 0] y hs (ix2 r k) = y (ix2 ⟨r.val, lt_of_lt_of_le r.isLt hnN⟩ k) :=
  slice2_axis0_apply 0 y hs r k ⟨r.val, lt_of_lt_of_le r.isLt hnN⟩ (Nat.zero_add _).symm

theorem normSource_apply {E : Nat} (s : IVec ⟨1, ![E]⟩ 32) (hb : (⟨0, ![]⟩ : Shape).BroadcastsInDim ⟨1, ![E]⟩ ![]) (e : Fin E) :
    select (cmpi .slt s (broadcastInDim ⟨1, ![E]⟩ ![] hb (constantI ⟨0, ![]⟩ 32 0#32)))
        (addi s (broadcastInDim ⟨1, ![E]⟩ ![] hb (constantI ⟨0, ![]⟩ 32 100000#32))) s (ix1 e)
      = normWord (s (ix1 e)) := rfl

-- Gather the rows at the normalised source words, then add each gathered row into the row its destination word names.
theorem agg_apply
    (dG : GatherDims ⟨2, ![100000, 128]⟩ ⟨2, ![1600000, 1]⟩ ⟨2, ![1600000, 128]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, 128])
    (dS : ScatterDims ⟨2, ![100000, 128]⟩ ⟨2, ![1600000, 1]⟩ ⟨2, ![1600000, 128]⟩)
    (hS1 : dS.updateWindowDims = [1]) (hS2 : dS.insertedWindowDims = [0]) (hS3 : dS.scatterDimsToOperandDims = [0])
    (hS4 : dS.indexVectorDim = 1)
    (h : (⟨2, ![100000, 128]⟩ : Shape).Idx → EReal) (ei : IVec ⟨2, ![2, 1600000]⟩ 32)
    (hs0 : (⟨2, ![2, 1600000]⟩ : Shape).Slices ![0, 0] ⟨2, ![1, 1600000]⟩)
    (hs1 : (⟨2, ![2, 1600000]⟩ : Shape).Slices ![1, 0] ⟨2, ![1, 1600000]⟩)
    (hc : (⟨2, ![1, 1600000]⟩ : Shape).ShapeCasts ⟨1, ![1600000]⟩)
    (hbE : (⟨0, ![]⟩ : Shape).BroadcastsInDim ⟨1, ![1600000]⟩ ![])
    (hbC : (⟨1, ![1600000]⟩ : Shape).BroadcastsInDim ⟨2, ![1600000, 1]⟩ ![0])
    (hbZ : (⟨0, ![]⟩ : Shape).BroadcastsInDim ⟨2, ![100000, 128]⟩ ![])
    (i : Fin 100000) (j : Fin 128) :
    Host.scatterAdd (F := Ideal) dS
        (broadcastInDim ⟨2, ![100000, 128]⟩ ![] hbZ (constant (F := Ideal) ⟨0, ![]⟩ .f32 0x00000000#32))
        (broadcastInDim ⟨2, ![1600000, 1]⟩ ![0] hbC
          (shapeCast ⟨1, ![1600000]⟩ (extractStridedSlice ⟨2, ![1, 1600000]⟩ ![1, 0] ei hs1) hc))
        (Host.gather dG h
          (broadcastInDim ⟨2, ![1600000, 1]⟩ ![0] hbC
            (select
              (cmpi .slt (shapeCast ⟨1, ![1600000]⟩ (extractStridedSlice ⟨2, ![1, 1600000]⟩ ![0, 0] ei hs0) hc)
                (broadcastInDim ⟨1, ![1600000]⟩ ![] hbE (constantI ⟨0, ![]⟩ 32 0#32)))
              (addi (shapeCast ⟨1, ![1600000]⟩ (extractStridedSlice ⟨2, ![1, 1600000]⟩ ![0, 0] ei hs0) hc)
                (broadcastInDim ⟨1, ![1600000]⟩ ![] hbE (constantI ⟨0, ![]⟩ 32 100000#32)))
              (shapeCast ⟨1, ![1600000]⟩ (extractStridedSlice ⟨2, ![1, 1600000]⟩ ![0, 0] ei hs0) hc))))
        (ix2 i j)
      = agg (cur2 h) (fun e => normWord (ei (ix2 0 e))) (fun e => ei (ix2 1 e)) i j := by
  rw [RowOps.hostScatterAdd_eq, RowOps.scatterAdd_rows_apply dS hS1 hS2 hS3 hS4]
  rw [broadcastInDim_scalar_apply hbZ, constant_apply, Ideal.ofBits_zero_f32, zero_add]
  unfold agg
  refine Finset.sum_congr rfl fun e _ => ?_
  rw [vecAsCol_apply hbC _ e (0 : Fin 1), rowVec_apply 1 (by norm_num) ei hs1 hc e]
  rw [RowOps.gather_rows_apply (by norm_num) dG hG1 hG2 hG3 hG4 hG5 hG6 hG7 h _ e j]
  rw [vecAsCol_apply hbC _ e (0 : Fin 1), normSource_apply _ hbE e, rowVec_apply 0 (by norm_num) ei hs0 hc e]
  rfl

end GinSpec

end
-- ==== Proof.GinAssemble.lean ====
import proofs.«423486_j42142219108934_1_alg».proof.Proof.GinSpec

noncomputable section

namespace GinSpec

open Idealize.ShloMosaic Idealize.ShloMosaic.ValueIdx

def top (o : (⟨2, ![100096, 128]⟩ : Shape).Idx → EReal) : Rows := fun r k => o (ix2 ⟨r.val, by omega⟩ k)

section
variable (x : (⟨2, ![100000, 128]⟩ : Shape).Idx → EReal) (ei : (⟨2, ![2, 1600000]⟩ : Shape).Idx → BitVec 32)
    (batch : (⟨1, ![100000]⟩ : Shape).Idx → BitVec 32)
    (W1s : (⟨3, ![3, 128, 128]⟩ : Shape).Idx → EReal) (b1s gs bs mus vs : (⟨2, ![3, 128]⟩ : Shape).Idx → EReal)
    (W2s : (⟨3, ![3, 128, 128]⟩ : Shape).Idx → EReal) (b2s : (⟨2, ![3, 128]⟩ : Shape).Idx → EReal)
    (Wp : (⟨2, ![128, 128]⟩ : Shape).Idx → EReal) (bp gamma beta : (⟨1, ![128]⟩ : Shape).Idx → EReal)

abbrev srcOf : Fin 1600000 → BitVec 32 := fun e => normWord (ei (ix2 0 e))
abbrev dstOf : Fin 1600000 → BitVec 32 := fun e => ei (ix2 1 e)

abbrev layerAt (l : Fin 3) (h : Rows) : Rows :=
  layer h (agg h (srcOf ei) (dstOf ei)) (cur3 W1s l) (cur2 b1s l) (cur2 gs l) (cur2 bs l) (cur2 mus l) (cur2 vs l) (cur3 W2s l) (cur2 b2s l)

theorem forwardArr_of_padded (o1 o2 o3 : (⟨2, ![100096, 128]⟩ : Shape).Idx → EReal) (o4 : (⟨2, ![256, 128]⟩ : Shape).Idx → EReal)
    (h1 : ∀ (r : Fin 100000) (k : Fin 128), top o1 r k = layerAt ei W1s b1s gs bs mus vs W2s b2s 0 (cur2 x) r k)
    (h2 : ∀ (r : Fin 100000) (k : Fin 128), top o2 r k = layerAt ei W1s b1s gs bs mus vs W2s b2s 1 (top o1) r k)
    (h3 : ∀ (r : Fin 100000) (k : Fin 128), top o3 r k = layerAt ei W1s b1s gs bs mus vs W2s b2s 2 (top o2) r k)
    (h4 : ∀ (g : Fin 256) (j : Fin 128), o4 (ix2 g j) = head (top o3) (cur1 batch) (cur2 Wp) (cur1 bp) (cur1 gamma) (cur1 beta) g j) :
    o4 = forwardArr x ei batch W1s b1s gs bs mus vs W2s b2s Wp bp gamma beta := by
  have e1 : top o1 = layerAt ei W1s b1s gs bs mus vs W2s b2s 0 (cur2 x) := funext fun r => funext fun k => h1 r k
  have e2 : top o2 = layerAt ei W1s b1s gs bs mus vs W2s b2s 1 (top o1) := funext fun r => funext fun k => h2 r k
  have e3 : top o3 = layerAt ei W1s b1s gs bs mus vs W2s b2s 2 (top o2) := funext fun r => funext fun k => h3 r k
  refine ext2 fun g j => ?_
  rw [h4 g j, e3, e2, e1]
  rfl

theorem forwardArr_of_stages (o1 o2 o3 : (⟨2, ![100000, 128]⟩ : Shape).Idx → EReal) (o4 : (⟨2, ![256, 128]⟩ : Shape).Idx → EReal)
    (h1 : ∀ (r : Fin 100000) (k : Fin 128), o1 (ix2 r k) = layerAt ei W1s b1s gs bs mus vs W2s b2s 0 (cur2 x) r k)
    (h2 : ∀ (r : Fin 100000) (k : Fin 128), o2 (ix2 r k) = layerAt ei W1s b1s gs bs mus vs W2s b2s 1 (cur2 o1) r k)
    (h3 : ∀ (r : Fin 100000) (k : Fin 128), o3 (ix2 r k) = layerAt ei W1s b1s gs bs mus vs W2s b2s 2 (cur2 o2) r k)
    (h4 : ∀ (g : Fin 256) (j : Fin 128), o4 (ix2 g j) = head (cur2 o3) (cur1 batch) (cur2 Wp) (cur1 bp) (cur1 gamma) (cur1 beta) g j) :
    o4 = forwardArr x ei batch W1s b1s gs bs mus vs W2s b2s Wp bp gamma beta := by
  have e1 : cur2 o1 = layerAt ei W1s b1s gs bs mus vs W2s b2s 0 (cur2 x) := funext fun r => funext fun k => h1 r k
  have e2 : cur2 o2 = layerAt ei W1s b1s gs bs mus vs W2s b2s 1 (cur2 o1) := funext fun r => funext fun k => h2 r k
  have e3 : cur2 o3 = layerAt ei W1s b1s gs bs mus vs W2s b2s 2 (cur2 o2) := funext fun r => funext fun k => h3 r k
  refine ext2 fun g j => ?_
  rw [h4 g j, e3, e2, e1]
  rfl

end

end GinSpec

end
-- ==== Proof.KI.HostLib.lean ====
import proofs.«423486_j42142219108934_1_alg».proof.Proof.Gen.KernelIdeal.Regions
import proofs.«423486_j42142219108934_1_alg».proof.Proof.LibAgg
import Idealize.ShloMosaic.Lib.StableHlo.Run
import proofs.«423486_j42142219108934_1_alg».proof.Proof.GinAssemble

set_option maxRecDepth 4096

noncomputable section

namespace Cert.KernelIdeal.Hand

open Cert.KernelIdeal Cert.KernelIdeal.Gen
open Idealize.ShloMosaic Idealize.ShloMosaic.TcCoe Idealize.ShloMosaic.ValueIdx GinSpec
open Idealize.ShloMosaic.StableHlo

def srcWords (ei : S2x1600000.Idx → BitVec 32) : S1600000.Idx → BitVec 32 :=
  shapeCast S1600000 (extractStridedSlice S1x1600000 ![0, 0] ei slices_S2x1600000_S1x1600000_0_0) shapeCasts_S1x1600000_S1600000

def dstWords (ei : S2x1600000.Idx → BitVec 32) : S1600000.Idx → BitVec 32 :=
  shapeCast S1600000 (extractStridedSlice S1x1600000 ![1, 0] ei slices_S2x1600000_S1x1600000_1_0) shapeCasts_S1x1600000_S1600000

def aggArr (x : S100000x128.Idx → EReal) (sw dw : S1600000.Idx → BitVec 32) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dw)
    (Host.gather gather_S100000x128_S1600000x1_S1600000x128_1_0_n_n_0_1_1128 x
      (broadcastInDim S1600000x1 ![0] bcast_S1600000_S1600000x1_0
        (select (cmpi .slt sw (broadcastInDim S1600000 ![] bcast_S_S1600000 (constantI S_ 32 0#32)))
          (addi sw (broadcastInDim S1600000 ![] bcast_S_S1600000 (constantI S_ 32 100000#32))) sw)))

def padArr (x : S100000x128.Idx → EReal) : S100096x128.Idx → EReal :=
  pad S100096x128 ![0, 0] ![96, 0] ![0, 0] x (sitofp (F := Ideal) .f32 (constantI S_ 32 0#32)) pads_S100000x128_S100096x128_0960_000 h_S_

theorem padArr_apply (x : S100000x128.Idx → EReal) (r : Fin 100096) (k : Fin 128) :
    padArr x (ix2 r k) = if h : r.val < 100000 then x (ix2 ⟨r.val, h⟩ k) else 0 := by
  unfold padArr
  rw [padRows_apply 96 x _ pads_S100000x128_S100096x128_0960_000 h_S_ r k]
  refine dite_congr rfl (fun _ => rfl) (fun _ => ?_)
  show (((0#32 : BitVec 32).toInt : ℝ) : EReal) = 0
  rw [show (0#32 : BitVec 32).toInt = 0 from rfl, Int.cast_zero, EReal.coe_zero]

theorem aggArr_apply (x : S100000x128.Idx → EReal) (ei : S2x1600000.Idx → BitVec 32) (i : Fin 100000) (j : Fin 128) :
    aggArr x (srcWords ei) (dstWords ei) (ix2 i j)
      = GinSpec.agg (cur2 x) (fun e => normWord (ei (ix2 0 e))) (fun e => ei (ix2 1 e)) i j := by
  unfold aggArr srcWords dstWords
  exact agg_apply _ rfl rfl rfl rfl rfl rfl rfl _ rfl rfl rfl rfl x ei _ _ _ _ _ _ i j

theorem headArr_cur2 (o : S100096x128.Idx → EReal) :
    cur2 (extractStridedSlice S100000x128 ![0, 0] o slices_S100096x128_S100000x128_0_0) = GinSpec.top o := by
  funext r k
  exact headRows_apply o _ (by norm_num) r k

section Words
variable (W : Valuation τ sig (Elt Ideal))

theorem ops0_v1 : (StableHlo.after hostOps0 W (Proc.devRef .tc main_v1) : S1600000.Idx → BitVec 32) = srcWords (W main_arg1) := by
  unfold srcWords
  after_results <;> rfl

theorem ops0_v3 : (StableHlo.after hostOps0 W (Proc.devRef .tc main_v3) : S1600000.Idx → BitVec 32) = dstWords (W main_arg1) := by
  unfold dstWords
  after_results <;> rfl

end Words

section Launch
variable (m : (ℓ : Loc nD τ sig) → Buf (Elt Ideal) ℓ) (c : Dev nD)

abbrev hostEI : S2x1600000.Idx → BitVec 32 := m ((c : Thread nD τ).loc main_arg1)

end Launch

section Keep
variable (m : (ℓ : Loc nD τ sig) → Buf (Elt Ideal) ℓ) (outs : Gen.Outs (F := Ideal)) (c : Dev nD)

theorem V5_keep (r : Ref sig .tc) (h2 : r ∉ hostOps0_1_W := by decide) (h3 : r ∉ hostOps0_2_W := by decide)
    (h4 : r ∉ hostOps0_3_W := by decide) (h5 : r ∉ hostOps0_4_W := by decide) : V5 m c r = V1 m c r :=
  (V5_of m c r h5).trans <| (V4_of m c r h4).trans <| (V3_of m c r h3).trans (V2_of m c r h2)

theorem V11_keep (r : Ref sig .tc) (h6 : r ∉ ([main_v38] : List (Ref sig .tc)) := by decide) (h7 : r ∉ hostOps1_W := by decide)
    (h8 : r ∉ hostOps1_1_W := by decide) (h9 : r ∉ hostOps1_2_W := by decide) (h10 : r ∉ hostOps1_3_W := by decide)
    (h11 : r ∉ hostOps1_4_W := by decide) : V11 m outs c r = V5 m c r :=
  (V11_of m outs c r h11).trans <| (V10_of m outs c r h10).trans <| (V9_of m outs c r h9).trans <| (V8_of m outs c r h8).trans <|
    (V7_of m outs c r h7).trans (V6_of m outs c r h6)

theorem V5_arg (r : Ref sig .tc) (h1 : r ∉ hostOps0_W := by decide) (h2 : r ∉ hostOps0_1_W := by decide)
    (h3 : r ∉ hostOps0_2_W := by decide) (h4 : r ∉ hostOps0_3_W := by decide) (h5 : r ∉ hostOps0_4_W := by decide) :
    V5 m c r = m ((c : Thread nD τ).loc r) :=
  (V5_keep m c r h2 h3 h4 h5).trans (V1_of m c r h1)

theorem V5_v1 : (V5 m c main_v1 : S1600000.Idx → BitVec 32) = srcWords (hostEI m c) := (V5_keep m c main_v1).trans (ops0_v1 (V0 m c))
theorem V5_v3 : (V5 m c main_v3 : S1600000.Idx → BitVec 32) = dstWords (hostEI m c) := (V5_keep m c main_v3).trans (ops0_v3 (V0 m c))

end Keep

end Cert.KernelIdeal.Hand
end
-- ==== Proof.KI.HostPool.lean ====
import proofs.«423486_j42142219108934_1_alg».proof.Proof.KI.HostLib
import Idealize.ShloMosaic.Lib.KernelVsHost
import Idealize.ShloMosaic.Lib.Pipeline.Value
import Idealize.ShloMosaic.Lib.ValueLayout

set_option maxRecDepth 4096

noncomputable section

namespace Cert.KernelIdeal.Hand

open Cert.KernelIdeal Cert.KernelIdeal.Gen
open Idealize.ShloMosaic Idealize.ShloMosaic.TcCoe Idealize.ShloMosaic.ValueIdx GinSpec
open Idealize.ShloMosaic.StableHlo

variable (W : Valuation τ sig (Elt Ideal))

abbrev after3 : Valuation τ sig (Elt Ideal) :=
  after hostOps3_4 (after hostOps3_3 (after hostOps3_2 (after hostOps3_1 (after hostOps3 W))))

theorem ops3_bp : (after3 W main_v115 : S1x128.Idx → EReal) = shapeCast S1x128 (W main_arg12) shapeCasts_S128_S1x128 := by
  unfold after3; after_results_simp <;> rfl
theorem ops3_gamma : (after3 W main_v116 : S1x128.Idx → EReal) = shapeCast S1x128 (W main_arg13) shapeCasts_S128_S1x128 := by
  unfold after3; after_results_simp <;> rfl
theorem ops3_beta : (after3 W main_v117 : S1x128.Idx → EReal) = shapeCast S1x128 (W main_arg14) shapeCasts_S128_S1x128 := by
  unfold after3; after_results_simp <;> rfl

theorem ops3_batch : (after3 W main_v113 : S1x100096.Idx → BitVec 32)
    = pad S1x100096 ![0, 0] ![0, 96] ![0, 0] (shapeCast S1x100000 (W main_arg2) shapeCasts_S100000_S1x100000)
        (constantI S_ 32 256#32) pads_S1x100000_S1x100096_000_0960 h_S_ := by
  unfold after3; after_results_simp <;> rfl

theorem ops3_h : (after3 W main_v114 : S100096x128.Idx → EReal)
    = padArr (extractStridedSlice S100000x128 ![0, 0] (W main_v110 : S100096x128.Idx → EReal) slices_S100096x128_S100000x128_0_0) := by
  unfold after3 padArr; after_results_simp <;> rfl

variable (m : (ℓ : Loc nD τ sig) → Buf (Elt Ideal) ℓ) (outs : Gen.Outs (F := Ideal)) (c : Dev nD)

theorem V18_arg (r : Ref sig .tc) (e : V24 m outs c r = m ((c : Thread nD τ).loc r)) (h19 : r ∉ hostOps3_W := by decide)
    (h20 : r ∉ hostOps3_1_W := by decide) (h21 : r ∉ hostOps3_2_W := by decide) (h22 : r ∉ hostOps3_3_W := by decide)
    (h23 : r ∉ hostOps3_4_W := by decide) (h24 : r ∉ ([main_v118] : List (Ref sig .tc)) := by decide) :
    V18 m outs c r = m ((c : Thread nD τ).loc r) :=
  (V19_of m outs c r h19).symm.trans <| (V20_of m outs c r h20).symm.trans <| (V21_of m outs c r h21).symm.trans <|
    (V22_of m outs c r h22).symm.trans <| (V23_of m outs c r h23).symm.trans <| (V24_of m outs c r h24).symm.trans e

theorem V23_Wp : V23 m outs c main_arg11 = m ((c : Thread nD τ).loc main_arg11) :=
  (V24_of m outs c main_arg11 (by decide)).symm.trans (V24_main_arg11 m outs c)

theorem V23_bp (k : Fin 128) : (V23 m outs c main_v115 : S1x128.Idx → EReal) (ix2 0 k)
    = (m ((c : Thread nD τ).loc main_arg12) : S128.Idx → EReal) (ix1 k) := by
  rw [show (V23 m outs c main_v115 : S1x128.Idx → EReal) = _ from ops3_bp (V18 m outs c), shapeCast_a_1a_apply,
    V18_arg m outs c main_arg12 (V24_main_arg12 m outs c)]

theorem V23_gamma (k : Fin 128) : (V23 m outs c main_v116 : S1x128.Idx → EReal) (ix2 0 k)
    = (m ((c : Thread nD τ).loc main_arg13) : S128.Idx → EReal) (ix1 k) := by
  rw [show (V23 m outs c main_v116 : S1x128.Idx → EReal) = _ from ops3_gamma (V18 m outs c), shapeCast_a_1a_apply,
    V18_arg m outs c main_arg13 (V24_main_arg13 m outs c)]

theorem V23_beta (k : Fin 128) : (V23 m outs c main_v117 : S1x128.Idx → EReal) (ix2 0 k)
    = (m ((c : Thread nD τ).loc main_arg14) : S128.Idx → EReal) (ix1 k) := by
  rw [show (V23 m outs c main_v117 : S1x128.Idx → EReal) = _ from ops3_beta (V18 m outs c), shapeCast_a_1a_apply,
    V18_arg m outs c main_arg14 (V24_main_arg14 m outs c)]

theorem V23_batch (e : Fin 100096) : (V23 m outs c main_v113 : S1x100096.Idx → BitVec 32) (ix2 0 e)
    = if h : e.val < 100000 then (m ((c : Thread nD τ).loc main_arg2) : S100000.Idx → BitVec 32) (ix1 ⟨e.val, h⟩) else 256#32 := by
  rw [show (V23 m outs c main_v113 : S1x100096.Idx → BitVec 32) = _ from ops3_batch (V18 m outs c),
    V18_arg m outs c main_arg2 (V24_main_arg2 m outs c)]
  by_cases h : e.val < 100000
  · rw [dif_pos h]
    exact (pad_apply_of_inside _ _ _ _ _ _ _ _ (ix2 0 ⟨e.val, h⟩) (fun a => by fin_cases a <;> simp)).trans
      (shapeCast_a_1a_apply _ _ 0 _)
  · rw [dif_neg h]
    exact pad_apply_of_not_inside _ _ _ _ _ _ _ (ix2 0 e) 1 (fun h3 => h (by simpa using h3.2.2))

abbrev H3 : Fin 100000 → Fin 128 → EReal := fun r k =>
  (outs 18 main_v110 c : S100096x128.Idx → EReal) (ix2 ⟨r.val, by omega⟩ k)

theorem V23_h (r : Fin 100096) (k : Fin 128) : (V23 m outs c main_v114 : S100096x128.Idx → EReal) (ix2 r k)
    = if h : r.val < 100000 then H3 outs c ⟨r.val, h⟩ k else 0 := by
  rw [show (V23 m outs c main_v114 : S100096x128.Idx → EReal) = _ from ops3_h (V18 m outs c), padArr_apply,
    show (V18 m outs c main_v110 : S100096x128.Idx → EReal) = outs 18 main_v110 c from
      Function.update_self (β := fun b : DevRef τ sig => b.ty.Contents (Elt Ideal)) (Proc.devRef .tc main_v110) (outs 18 main_v110 c) _]
  exact dite_congr rfl (fun h => headRows_apply _ _ (by norm_num) ⟨r.val, h⟩ k) (fun _ => rfl)

end Cert.KernelIdeal.Hand
end
-- ==== Proof.GinConsts.lean ====
import Idealize.ShloMosaic.PureOps.Ideal
import proofs.«423486_j42142219108934_1_alg».proof.Proof.GinSpec

noncomputable section

namespace GinSpec

open Idealize.ShloMosaic

theorem cOne_eq : GinSpec.cOne = 1 := by
  simp [GinSpec.cOne, Ideal.ofBits, Ideal.ieee, -EReal.coe_mul]; norm_num

theorem c128_eq : GinSpec.c128 = ((128 : ℝ) : EReal) := by
  simp [GinSpec.c128, Ideal.ofBits, Ideal.ieee, -EReal.coe_mul]; norm_num

theorem c128_pos : (0 : EReal) < GinSpec.c128 := by
  rw [c128_eq]; exact_mod_cast (by norm_num : (0 : ℝ) < 128)

end GinSpec

end
-- ==== Proof.KI.PoolPay.lean ====
import proofs.«423486_j42142219108934_1_alg».proof.Proof.Gen.KernelIdeal.Skeleton
import proofs.«423486_j42142219108934_1_alg».proof.Proof.GinSpec
import proofs.«423486_j42142219108934_1_alg».proof.Proof.GinConsts
import Idealize.ShloMosaic.Lib.ValueIdx
import Idealize.ShloMosaic.Lib.ValueLayout
import Idealize.ShloMosaic.Lib.Pipeline.Value
import Idealize.ShloMosaic.Lib.KernelVsHost
import Idealize.ShloMosaic.Lib.WordArith
import Idealize.ShloMosaic.PureOps.Ideal.Laws

noncomputable section

open scoped BigOperators

namespace Cert.KernelIdeal.Hand

open Cert.KernelIdeal Cert.KernelIdeal.Gen Idealize.ShloMosaic Idealize.ShloMosaic.ValueIdx GinSpec

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h (ix2 p c) (ix2 p (0 : Fin 1)) fun ax => match ax with
    | ⟨0, _⟩ => by show p.val = if a = 1 then 0 else p.val; split <;> omega
    | ⟨1, _⟩ => rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

end Layout

/-- The word of a number below 256 reads signed as that number, and words that read signed alike are equal. -/
theorem onehot_word (w : BitVec 32) (g : ℕ) (hg : g < 256) :
    (FloatOps.sitofp (F := Ideal) .f32 (BitVec.setWidth 32 (IntOp.cmpi .eq w (BitVec.ofNat 32 g))) : EReal)
      = if w.toInt = (g : ℤ) then 1 else 0 := by
  have hto := WordArith.toInt_ofNat_small g (by omega)
  show ((((BitVec.setWidth 32 (BitVec.ofBool (w == BitVec.ofNat 32 g))).toInt : ℤ) : ℝ) : EReal) = _
  rw [toInt_setWidth_bit]
  by_cases h : w = BitVec.ofNat 32 g
  · rw [h, if_pos hto, beq_self_eq_true]; simp
  · rw [if_neg fun e => h (BitVec.eq_of_toInt_eq (e.trans hto.symm)), beq_eq_false_iff_ne.mpr h]; norm_num

/-- A product whose contraction indices are numbered by e is the sum over the numbers r of A (L r) * B (R r). -/
theorem matmul2_apply {a b c d n : ℕ} {so : Shape} {φ₁ φ₂ : FTy} (D : DotDims ⟨2, ![a, b]⟩ ⟨2, ![c, d]⟩ so)
    (e : D.contr.Idx ≃ Fin n) (A : FVec Ideal ⟨2, ![a, b]⟩ φ₁) (B : FVec Ideal ⟨2, ![c, d]⟩ φ₂) (i : so.Idx)
    (L0 : Fin n → Fin a) (L1 : Fin n → Fin b) (R0 : Fin n → Fin c) (R1 : Fin n → Fin d)
    (h : ∀ k, (D.lhsIdx i k 0 : ℕ) = L0 (e k) ∧ (D.lhsIdx i k 1 : ℕ) = L1 (e k)
      ∧ (D.rhsIdx i k 0 : ℕ) = R0 (e k) ∧ (D.rhsIdx i k 1 : ℕ) = R1 (e k)) :
    matmul D none A B (constant (F := Ideal) so .f32 0x00000000#32) i
      = ∑ r : Fin n, A (ix2 (L0 r) (L1 r)) * B (ix2 (R0 r) (R1 r)) :=
  (Ideal.matmul_constant_zero_apply D none A B i).trans (Fintype.sum_equiv e _ _ fun k => by
    obtain ⟨h0, h1, h2, h3⟩ := h k
    rw [eq_ix2 (D.lhsIdx i k), eq_ix2 (D.rhsIdx i k), Fin.ext h0, Fin.ext h1, Fin.ext h2, Fin.ext h3]
    rfl)

theorem pool_matmul_apply {φ₁ φ₂ : FTy} (A : FVec Ideal S5888x256 φ₁) (B : FVec Ideal S5888x128 φ₂) (g : Fin 256) (j : Fin 128) :
    matmul dot_S5888x256_S5888x128_S256x128_0_0_1_1_n_n none A B (constant (F := Ideal) S256x128 .f32 0x00000000#32) (ix2 g j)
      = ∑ r : Fin 5888, A (ix2 r g) * B (ix2 r j) :=
  matmul2_apply _ (contrEquiv1 _ 5888 rfl rfl) A B (ix2 g j) (fun r => r) (fun _ => g) (fun r => r) (fun _ => j) fun k => by
    refine ⟨?_, ?_, ?_, ?_⟩ <;> (simp [DotDims.lhsIdx, DotDims.rhsIdx, dot_S5888x256_S5888x128_S256x128_0_0_1_1_n_n] <;> rfl)

theorem head_matmul_apply {φ₁ φ₂ : FTy} (A : FVec Ideal S256x128 φ₁) (B : FVec Ideal S128x128 φ₂) (g : Fin 256) (j : Fin 128) :
    matmul dot_S256x128_S128x128_S256x128_1_0_0_1_n_n none A B (constant (F := Ideal) S256x128 .f32 0x00000000#32) (ix2 g j)
      = ∑ k : Fin 128, A (ix2 g k) * B (ix2 k j) :=
  matmul2_apply _ (contrEquiv1 _ 128 rfl rfl) A B (ix2 g j) (fun _ => g) (fun r => r) (fun r => r) (fun _ => j) fun k => by
    refine ⟨?_, ?_, ?_, ?_⟩ <;> (simp [DotDims.lhsIdx, DotDims.rhsIdx, dot_S256x128_S128x128_S256x128_1_0_0_1_n_n] <;> rfl)

theorem pool_colSum_apply (src : FVec Ideal S5888x256 .f32) (g : Fin 256) :
    multiReduction (F := Ideal) .add [0] S256 src 0x00000000#32 reduces_S5888x256_S256 (.inl rfl) rfl (ix1 g)
      = ∑ r : Fin 5888, src (ix2 r g) :=
  (Ideal.multiReduction_add_single src _ reduces_S5888x256_S256 _ _ (ix1 g)).trans
    (Finset.sum_congr rfl fun r _ => congrArg src (eq_ix2 _))

theorem head_rowSum_eq (src : FVec Ideal S256x128 .f32) :
    shapeCast S256x1 (multiReduction (F := Ideal) .add [1] S256 src 0x00000000#32 reduces_S256x128_S256 (.inl rfl) rfl)
        shapeCasts_S256_S256x1
      = fun i => ∑ j : Fin 128, src (ix2 (i 0) j) :=
  funext fun i => (congrArg _ (eq_ix2 i)).trans <| (shapeCast_a_a1_apply _ _ (i 0) (i 1)).trans <|
    (Ideal.multiReduction_add_single src _ reduces_S256x128_S256 _ _ (ix1 (i 0))).trans
      (Finset.sum_congr rfl fun j _ => congrArg src (eq_ix2 _))

theorem rsqrt_apply {s : Shape} {φ : FTy} (a : FVec Ideal s φ) (i : s.Idx) : rsqrt a i = Ideal.rsqrt (a i) := rfl

theorem pay3_1_apply (g : Fin 256) (j : Fin 128) : k3_pay1 (F := Ideal) (ix2 g j) = 0 := by
  simp only [k3_pay1, shapeCast_self, broadcast_apply]; exact Ideal.ofBits_zero_f32

theorem pay3_2_apply (g : Fin 256) : k3_pay2 (F := Ideal) (ix2 0 g) = 0 := by
  simp only [k3_pay2, shapeCast_self, broadcast_apply]; exact Ideal.ofBits_zero_f32

theorem pay3_3_apply (v3 : Vec Ideal S1x5888 .i32) (r : Fin 5888) (g : Fin 256) :
    k3_pay3 (F := Ideal) v3 (ix2 r g) = if (v3 (ix2 0 r)).toInt = (g.val : ℤ) then 1 else 0 := by
  unfold k3_pay3
  simp only [shapeCast_self, sitofp_apply, extui_apply, cmpi, broadcastTo_a1_ab_apply]
  rw [transpose_ix2_apply, iota_single_apply]
  exact onehot_word _ g.val g.isLt

/-- A block adds to the sums, at (g, j), column j summed over its rows whose word is g: 1 · x = x and 0 · x = 0. -/
theorem pay3_4_apply (v3 : Vec Ideal S1x5888 .i32) (v12 : Vec Ideal S5888x128 .f32) (v16 : Vec Ideal S256x128 .f32)
    (g : Fin 256) (j : Fin 128) :
    k3_pay4 (F := Ideal) v3 v12 v16 (ix2 g j)
      = v16 (ix2 g j) + ∑ r : Fin 5888, (if (v3 (ix2 0 r)).toInt = (g.val : ℤ) then v12 (ix2 r j) else 0) := by
  unfold k3_pay4
  simp only [shapeCast_self, addf_apply, pool_matmul_apply, truncf_apply, pay3_3_apply, ite_mul, one_mul, zero_mul]

theorem pay3_5_apply (v3 : Vec Ideal S1x5888 .i32) (v21 : Vec Ideal S1x256 .f32) (g : Fin 256) :
    k3_pay5 (F := Ideal) v3 v21 (ix2 0 g)
      = v21 (ix2 0 g) + ∑ r : Fin 5888, (if (v3 (ix2 0 r)).toInt = (g.val : ℤ) then 1 else 0) := by
  unfold k3_pay5
  simp only [shapeCast_self, addf_apply]
  rw [shapeCast_a_1a_apply, pool_colSum_apply]
  simp only [pay3_3_apply]

/-- The last step at (g, j): the sums over max (count, 1), times the weights plus the bias, normalised over the columns. -/
theorem pay3_6_apply (v32 : Vec Ideal S1x256 .f32) (v34 : Vec Ideal S256x128 .f32) (v40 : Vec Ideal S128x128 .f32)
    (v43 v65 v69 : Vec Ideal S1x128 .f32) (g : Fin 256) (j : Fin 128) :
    k3_pay6 (F := Ideal) v32 v34 v40 v43 v65 v69 (ix2 g j)
      = GinSpec.layerNorm
          (GinSpec.proj (fun g k => Ideal.div (v34 (ix2 g k)) (max (v32 (ix2 0 g)) GinSpec.cOne)) (cur2 v40)
            (fun k => v43 (ix2 0 k)))
          (fun k => v65 (ix2 0 k)) (fun k => v69 (ix2 0 k)) g j := by
  unfold k3_pay6 GinSpec.layerNorm GinSpec.rowVar GinSpec.rowMean GinSpec.proj
  dsimp only
  rw [head_rowSum_eq, head_rowSum_eq]
  simp only [addf_apply, mulf_apply, subf_apply, divf_apply, rsqrt_apply, maximumf_apply, truncf_apply, broadcast_apply,
    broadcastTo_a1_ab_apply, broadcastTo_1b_ab_apply, shapeCast_self, head_matmul_apply]
  rw [transpose_ix2_apply]
  rfl

end Cert.KernelIdeal.Hand

end
-- ==== Proof.LibBlocks.lean ====
import Mathlib.Algebra.BigOperators.Fin
import Mathlib.Algebra.BigOperators.Group.Finset.Basic
import Mathlib.Logic.Equiv.Fin.Basic

noncomputable section

open scoped BigOperators

namespace GinSpec

variable {M : Type*} [AddCommMonoid M]

theorem sum_blocks (f : Fin 100096 → M) :
    ∑ t : Fin 17, ∑ r : Fin 5888, f ⟨5888 * t.val + r.val, by omega⟩ = ∑ e : Fin 100096, f e := by
  rw [← Fintype.sum_prod_type']
  refine Fintype.sum_equiv (finProdFinEquiv.trans (finCongr (show 17 * 5888 = 100096 from rfl))) _ _ (fun x => ?_)
  congr 1
  ext
  simp only [Equiv.trans_apply, finCongr_apply, Fin.coe_cast, finProdFinEquiv_apply_val]
  omega

theorem sum_pad (f : Fin 100096 → M) (hz : ∀ e : Fin 100096, 100000 ≤ e.val → f e = 0) :
    ∑ e : Fin 100096, f e = ∑ e : Fin 100000, f ⟨e.val, by omega⟩ := by
  symm
  refine Fintype.sum_of_injective (fun e : Fin 100000 => (⟨e.val, by omega⟩ : Fin 100096)) ?_ _ _ ?_ (fun _ => rfl)
  · intro a b hab
    ext
    simpa using congrArg Fin.val hab
  · intro e he
    apply hz
    by_contra hlt
    exact he ⟨⟨e.val, by omega⟩, rfl⟩

theorem fold_blocks (p : Fin 17 → M) (acc : (n : ℕ) → n < 17 → M) (h0 : acc 0 (by omega) = 0 + p 0)
    (hs : ∀ n (hn : n + 1 < 17), acc (n + 1) hn = acc n (by omega) + p ⟨n + 1, hn⟩) :
    acc 16 (by omega) = ∑ t : Fin 17, p t := by
  have key : ∀ n (hn : n < 17), acc n hn = ∑ i ∈ Finset.range (n + 1), (if h : i < 17 then p ⟨i, h⟩ else 0) := by
    intro n
    induction n with
    | zero =>
      intro hn
      rw [h0, zero_add, Finset.sum_range_one]
      rfl
    | succ n ih =>
      intro hn
      rw [hs n hn, ih (by omega), Finset.sum_range_succ _ (n + 1), dif_pos hn]
  rw [key 16 (by omega), ← Fin.sum_univ_eq_sum_range (fun i => if h : i < 17 then p ⟨i, h⟩ else 0) 17]
  refine Finset.sum_congr rfl (fun t _ => ?_)
  rw [dif_pos t.isLt]

end GinSpec

end
-- ==== Proof.KI.PoolArr.lean ====
import proofs.«423486_j42142219108934_1_alg».proof.Proof.KI.Pool
import proofs.«423486_j42142219108934_1_alg».proof.Proof.KI.HostPool
import proofs.«423486_j42142219108934_1_alg».proof.Proof.KI.PoolPay
import proofs.«423486_j42142219108934_1_alg».proof.Proof.LibBlocks
import proofs.«423486_j42142219108934_1_alg».proof.Proof.GinSpec
import proofs.«423486_j42142219108934_1_alg».proof.Proof.GinConsts
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev arr3_0 (c : Dev nD) : S100096x128.Idx → EReal := V c (Pipeline.arrRef spec3 0)
abbrev arr3_1 (c : Dev nD) : S1x100096.Idx → BitVec 32 := V c (Pipeline.arrRef spec3 1)
abbrev arr3_2 (c : Dev nD) : S128x128.Idx → EReal := V c (Pipeline.arrRef spec3 2)
abbrev arr3_3 (c : Dev nD) : S1x128.Idx → EReal := V c (Pipeline.arrRef spec3 3)
abbrev arr3_4 (c : Dev nD) : S1x128.Idx → EReal := V c (Pipeline.arrRef spec3 4)
abbrev arr3_5 (c : Dev nD) : S1x128.Idx → EReal := V c (Pipeline.arrRef spec3 5)

theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = t.val)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0) :=
  (by decide +kernel : ∀ t : Fin grid3.N, _)

theorem winIdx_zero {i s x : ℕ} (h : i = 0) : i * s + 1 * x = x := by rw [h]; omega

theorem winIdx_at {i s x t : ℕ} (h : i = t) : i * s + 1 * x = s * t + x := by rw [h, Nat.one_mul, Nat.mul_comm]

theorem winIdx_zero_mem {i s x : ℕ} (h : i = 0) (hx : x < s) : i * s ≤ x ∧ x < i * s + s := by rw [h]; omega

theorem idx2_ext {n0 n1 : ℕ} {i j : (⟨2, ![n0, n1]⟩ : Shape).Idx} (h0 : (i 0).val = (j 0).val) (h1 : (i 1).val = (j 1).val) :
    i = j :=
  funext fun a => Fin.ext (match a with | ⟨0, _⟩ => h0 | ⟨1, _⟩ => h1)

theorem blk3_0_apply (c : Dev nD) (t : Fin cfg3.N) (p : Fin 5888) (k : Fin 128) :
    (iblk3 V c 0 t : S5888x128.Idx → EReal) (ix2 p k)
      = arr3_0 V c (ix2 ⟨5888 * t.val + p.val, by have := t.isLt.trans_eq N3; omega⟩ k) :=
  congrArg (V c (Pipeline.arrRef spec3 0)) (idx2_ext (winIdx_at (idx_facts3 t).1.1) (winIdx_zero (idx_facts3 t).1.2))

theorem blk3_1_apply (c : Dev nD) (t : Fin cfg3.N) (p : Fin 5888) :
    (iblk3 V c 1 t : S1x5888.Idx → BitVec 32) (ix2 0 p)
      = arr3_1 V c (ix2 0 ⟨5888 * t.val + p.val, by have := t.isLt.trans_eq N3; omega⟩) :=
  congrArg (V c (Pipeline.arrRef spec3 1)) (idx2_ext (winIdx_zero (idx_facts3 t).2.1.1) (winIdx_at (idx_facts3 t).2.1.2))

/-- A block at index zero on both axes and as large as its array is that array. -/
theorem blk3_whole (c : Dev nD) (t : Fin cfg3.N) :
    (iblk3 V c 2 t : S128x128.Idx → EReal) = arr3_2 V c ∧ (iblk3 V c 3 t : S1x128.Idx → EReal) = arr3_3 V c
      ∧ (iblk3 V c 4 t : S1x128.Idx → EReal) = arr3_4 V c ∧ (iblk3 V c 5 t : S1x128.Idx → EReal) = arr3_5 V c := by
  obtain ⟨-, -, ⟨a2, b2⟩, ⟨a3, b3⟩, ⟨a4, b4⟩, ⟨a5, b5⟩, -⟩ := idx_facts3 t
  refine ⟨?_, ?_, ?_, ?_⟩ <;> funext y <;> refine congrArg (V c _) (idx2_ext ?_ ?_)
  exacts [winIdx_zero a2, winIdx_zero b2, winIdx_zero a3, winIdx_zero b3, winIdx_zero a4, winIdx_zero b4, winIdx_zero a5, winIdx_zero b5]

abbrev sumTerm (c : Dev nD) (g : Fin 256) (j : Fin 128) (e : Fin 100096) : EReal :=
  if (arr3_1 V c (ix2 0 e)).toInt = (g.val : ℤ) then arr3_0 V c (ix2 e j) else 0

abbrev cntTerm (c : Dev nD) (g : Fin 256) (e : Fin 100096) : EReal :=
  if (arr3_1 V c (ix2 0 e)).toInt = (g.val : ℤ) then 1 else 0

/-- Step t adds to graph g's sum in column j the contributions of rows 5888 t … 5888 t + 5887. -/
theorem step_sum (c : Dev nD) (t : Fin cfg3.N) (v16 : Vec Ideal S256x128 .f32) (g : Fin 256) (j : Fin 128) :
    k3_pay4 (F := Ideal) (iblk3 V c 1 t) (iblk3 V c 0 t) v16 (ix2 g j)
      = v16 (ix2 g j) + ∑ r : Fin 5888, sumTerm V c g j ⟨5888 * t.val + r.val, by have := t.isLt.trans_eq N3; omega⟩ := by
  simp only [pay3_4_apply, blk3_0_apply, blk3_1_apply]

theorem step_cnt (c : Dev nD) (t : Fin cfg3.N) (v21 : Vec Ideal S1x256 .f32) (g : Fin 256) :
    k3_pay5 (F := Ideal) (iblk3 V c 1 t) v21 (ix2 0 g)
      = v21 (ix2 0 g) + ∑ r : Fin 5888, cntTerm V c g ⟨5888 * t.val + r.val, by have := t.isLt.trans_eq N3; omega⟩ := by
  simp only [pay3_5_apply, blk3_1_apply]

/-- The 17 steps' parts add up to the sum over all 100096 rows. -/
theorem acc_sums (c : Dev nD) (g : Fin 256) (j : Fin 128) :
    (accAt3 V c 16 lt16_3).1 (ix2 g j) = ∑ e : Fin 100096, sumTerm V c g j e :=
  (GinSpec.fold_blocks (fun t : Fin 17 => ∑ r : Fin 5888, sumTerm V c g j ⟨5888 * t.val + r.val, by omega⟩)
    (fun n hn => (accAt3 V c n (N3 ▸ hn)).1 (ix2 g j))
    ((step_sum V c ⟨0, _⟩ _ g j).trans (congrArg (· + _) (pay3_1_apply g j)))
    fun n hn => step_sum V c ⟨n + 1, _⟩ _ g j).trans (GinSpec.sum_blocks _)

theorem acc_cnt (c : Dev nD) (g : Fin 256) :
    (accAt3 V c 16 lt16_3).2 (ix2 0 g) = ∑ e : Fin 100096, cntTerm V c g e :=
  (GinSpec.fold_blocks (fun t : Fin 17 => ∑ r : Fin 5888, cntTerm V c g ⟨5888 * t.val + r.val, by omega⟩)
    (fun n hn => (accAt3 V c n (N3 ▸ hn)).2 (ix2 0 g))
    ((step_cnt V c ⟨0, _⟩ _ g).trans (congrArg (· + _) (pay3_2_apply g)))
    fun n hn => step_cnt V c ⟨n + 1, _⟩ _ g).trans (GinSpec.sum_blocks _)

/-- The last step reads sums and counts over all 100096 rows and the four parameter arrays whole. -/
theorem out3_6_apply (c : Dev nD) (g : Fin 256) (j : Fin 128) :
    out3_6 V c (ix2 g j)
      = GinSpec.layerNorm
          (GinSpec.proj (fun g k => Ideal.div (∑ e : Fin 100096, sumTerm V c g k e) (max (∑ e : Fin 100096, cntTerm V c g e) GinSpec.cOne))
            (GinSpec.cur2 (arr3_2 V c)) (fun k => arr3_3 V c (ix2 0 k)))
          (fun k => arr3_4 V c (ix2 0 k)) (fun k => arr3_5 V c (ix2 0 k)) g j := by
  obtain ⟨e2, e3, e4, e5⟩ := blk3_whole V c ⟨16, lt16_3⟩
  rw [out3_6_eq, pay3_6_apply, e2, e3, e4, e5]
  simp only [acc_sums, acc_cnt]

theorem flushed3_eq (c : Dev nD) (t : Fin cfg3.N) :
    (dat3 (F := Ideal) V c).flushed 6 t = ((cfg3.win 6).blk t).view.read (Elt Ideal) (out3_6 V c) := by
  obtain ⟨-, -, -, -, -, -, ⟨ea, eb⟩⟩ := idx_facts3 t
  show (cfg3.win 6).cut (grid3.coords t) ((dat3 (F := Ideal) V c).after 6 t) = _
  rw [after3_6]
  exact funext fun y => congrArg (out3_6 V c) (idx2_ext (winIdx_zero ea).symm (winIdx_zero eb).symm)

theorem cover3 (i : S256x128.Idx) :
    ∃ t : Fin cfg3.N, (cfg3.win 6).flush t = true ∧ i ∈ ((cfg3.win 6).blk t).view.set := by
  obtain ⟨t, ht⟩ : ∃ t : Fin cfg3.N, t.val = 16 := ⟨⟨16, lt16_3⟩, rfl⟩
  obtain ⟨-, -, -, -, -, -, ⟨ea, eb⟩⟩ := idx_facts3 t
  refine ⟨t, (flush3_6 t).mpr (by omega), ?_⟩
  show i ∈ ((View.whole (Pipeline.arrRef spec3 6)).slice (win3_6.rect t)).set
  rw [View.set_slice_whole, Rect.mem_set_unit]
  intro a
  match a with
  | ⟨0, _⟩ => exact winIdx_zero_mem ea (idx2_lt0 i)
  | ⟨1, _⟩ => exact winIdx_zero_mem eb (idx2_lt1 i)

theorem final3 (c : Dev nD) : (dat3 (F := Ideal) V c).arrAt 6 cfg3.N = out3_6 V c :=
  (dat3 (F := Ideal) V c).arrAt_eq_of_cover 6 _ (fun t _ => flushed3_eq V c t) cover3

section Value

variable (m : (ℓ : Loc nD τ sig) → Buf (Elt Ideal) ℓ) (outs : Gen.Outs (F := Ideal))

abbrev V23at : (c : Dev nD) → (b : Ref sig .tc) → Buf (Elt Ideal) ((c : Thread nD τ).loc b) := fun c b => V23 m outs c b

/-- Rows 100000 and up carry the word 256, which is no graph id, so they add nothing to a sum filtered by id. -/
theorem pad_sum (c : Dev nD) (g : Fin 256) (F : Fin 100096 → EReal) (F' : Fin 100000 → EReal)
    (hF : ∀ e : Fin 100000, F ⟨e.val, by omega⟩ = F' e) :
    (∑ e : Fin 100096, if (arr3_1 (V23at m outs) c (ix2 0 e)).toInt = (g.val : ℤ) then F e else 0)
      = ∑ e : Fin 100000, if (GinSpec.cur1 (m ((c : Thread nD τ).loc main_arg2) : S100000.Idx → BitVec 32) e).toInt = (g.val : ℤ)
          then F' e else 0 := by
  have hb : ∀ e : Fin 100096, arr3_1 (V23at m outs) c (ix2 0 e) = _ := V23_batch m outs c
  rw [GinSpec.sum_pad]
  · exact Finset.sum_congr rfl fun e _ => by rw [hb, dif_pos e.isLt, hF]; rfl
  · intro e he
    have := g.isLt
    rw [hb, dif_neg (by omega), if_neg (by rw [show (256#32 : BitVec 32).toInt = 256 from by decide]; omega)]

theorem mean_pad (c : Dev nD) (g : Fin 256) (k : Fin 128) :
    Ideal.div (∑ e : Fin 100096, sumTerm (V23at m outs) c g k e) (max (∑ e : Fin 100096, cntTerm (V23at m outs) c g e) GinSpec.cOne)
      = GinSpec.pooledMean (H3 outs c) (GinSpec.cur1 (m ((c : Thread nD τ).loc main_arg2) : S100000.Idx → BitVec 32)) g k := by
  unfold GinSpec.pooledMean GinSpec.pooledSum GinSpec.count
  rw [pad_sum m outs c g (fun e => arr3_0 (V23at m outs) c (ix2 e k)) (fun e => H3 outs c e k)
      fun e => (V23_h m outs c _ k).trans (dif_pos e.isLt),
    pad_sum m outs c g (fun _ => 1) (fun _ => GinSpec.cOne) fun _ => GinSpec.cOne_eq.symm]

theorem pool_value (c : Dev nD) (g : Fin 256) (j : Fin 128) :
    (dat3 (F := Ideal) (V23at m outs) c).arrAt 6 cfg3.N (ix2 g j)
      = GinSpec.head (H3 outs c) (GinSpec.cur1 (m ((c : Thread nD τ).loc main_arg2) : S100000.Idx → BitVec 32))
          (GinSpec.cur2 (m ((c : Thread nD τ).loc main_arg11) : S128x128.Idx → EReal))
          (GinSpec.cur1 (m ((c : Thread nD τ).loc main_arg12) : S128.Idx → EReal))
          (GinSpec.cur1 (m ((c : Thread nD τ).loc main_arg13) : S128.Idx → EReal))
          (GinSpec.cur1 (m ((c : Thread nD τ).loc main_arg14) : S128.Idx → EReal)) g j := by
  refine ((congrFun (final3 (V23at m outs) c) (ix2 g j)).trans (out3_6_apply (V23at m outs) c g j)).trans ?_
  unfold GinSpec.head
  simp only [mean_pad]
  rw [show arr3_2 (V23at m outs) c = _ from V23_Wp m outs c,
    show (fun k => arr3_3 (V23at m outs) c (ix2 0 k)) = _ from funext (V23_bp m outs c),
    show (fun k => arr3_4 (V23at m outs) c (ix2 0 k)) = _ from funext (V23_gamma m outs c),
    show (fun k => arr3_5 (V23at m outs) c (ix2 0 k)) = _ from funext (V23_beta m outs c)]
  rfl

end Value

end Cert.KernelIdeal.Hand

end
-- ==== Proof.KI.HostMlp0.lean ====
import proofs.«423486_j42142219108934_1_alg».proof.Proof.KI.HostLib

set_option maxRecDepth 4096

noncomputable section

namespace Cert.KernelIdeal.Hand

open Cert.KernelIdeal Cert.KernelIdeal.Gen
open Idealize.ShloMosaic Idealize.ShloMosaic.TcCoe Idealize.ShloMosaic.ValueIdx GinSpec
open Idealize.ShloMosaic.StableHlo

variable (W : Valuation τ sig (Elt Ideal))

abbrev after0 : Valuation τ sig (Elt Ideal) :=
  after hostOps0_4 (after hostOps0_3 (after hostOps0_2 (after hostOps0_1 (after hostOps0 W))))

theorem ops0_h : (after0 W main_v14 : S100096x128.Idx → EReal) = padArr (W main_arg0) := by
  unfold after0 padArr; after_results_simp <;> rfl

theorem ops0_agg : (after0 W main_v15 : S100096x128.Idx → EReal)
    = padArr (aggArr (W main_arg0) (srcWords (W main_arg1)) (dstWords (W main_arg1))) := by
  have e : (after hostOps0 W main_v13 : S100000x128.Idx → EReal)
      = aggArr (W main_arg0) (srcWords (W main_arg1)) (dstWords (W main_arg1)) := by
    unfold aggArr srcWords dstWords; after_results_simp <;> rfl
  rw [← e]; unfold after0 padArr; generalize after hostOps0 W = W'; after_results_simp <;> rfl

theorem ops0_W1 : cur2 (after0 W main_v17 : S128x128.Idx → EReal) = cur3 (W main_arg3) 0 := by
  funext p q; unfold after0; after_results_simp; exact slab_apply 0 (by norm_num) _ _ _ p q
theorem ops0_b1 : (fun k => (after0 W main_v20 : S1x128.Idx → EReal) (ix2 0 k)) = cur2 (W main_arg4) 0 := by
  funext k; unfold after0; after_results_simp; exact rowVec_asRow_apply 0 (by norm_num) _ _ _ _ 0 k
theorem ops0_g : (fun k => (after0 W main_v23 : S1x128.Idx → EReal) (ix2 0 k)) = cur2 (W main_arg5) 0 := by
  funext k; unfold after0; after_results_simp; exact rowVec_asRow_apply 0 (by norm_num) _ _ _ _ 0 k
theorem ops0_b : (fun k => (after0 W main_v26 : S1x128.Idx → EReal) (ix2 0 k)) = cur2 (W main_arg6) 0 := by
  funext k; unfold after0; after_results_simp; exact rowVec_asRow_apply 0 (by norm_num) _ _ _ _ 0 k
theorem ops0_mu : (fun k => (after0 W main_v29 : S1x128.Idx → EReal) (ix2 0 k)) = cur2 (W main_arg7) 0 := by
  funext k; unfold after0; after_results_simp; exact rowVec_asRow_apply 0 (by norm_num) _ _ _ _ 0 k
theorem ops0_v : (fun k => (after0 W main_v32 : S1x128.Idx → EReal) (ix2 0 k)) = cur2 (W main_arg8) 0 := by
  funext k; unfold after0; after_results_simp; exact rowVec_asRow_apply 0 (by norm_num) _ _ _ _ 0 k
theorem ops0_W2 : cur2 (after0 W main_v34 : S128x128.Idx → EReal) = cur3 (W main_arg9) 0 := by
  funext p q; unfold after0; after_results_simp; exact slab_apply 0 (by norm_num) _ _ _ p q
theorem ops0_b2 : (fun k => (after0 W main_v37 : S1x128.Idx → EReal) (ix2 0 k)) = cur2 (W main_arg10) 0 := by
  funext k; unfold after0; after_results_simp; exact rowVec_asRow_apply 0 (by norm_num) _ _ _ _ 0 k

end Cert.KernelIdeal.Hand
end
-- ==== Proof.KI.HostMlp1.lean ====
import proofs.«423486_j42142219108934_1_alg».proof.Proof.KI.HostLib

set_option maxRecDepth 4096

noncomputable section

namespace Cert.KernelIdeal.Hand

open Cert.KernelIdeal Cert.KernelIdeal.Gen
open Idealize.ShloMosaic Idealize.ShloMosaic.TcCoe Idealize.ShloMosaic.ValueIdx GinSpec
open Idealize.ShloMosaic.StableHlo

variable (W : Valuation τ sig (Elt Ideal))

abbrev after1 : Valuation τ sig (Elt Ideal) :=
  after hostOps1_4 (after hostOps1_3 (after hostOps1_2 (after hostOps1_1 (after hostOps1 W))))

theorem ops1_h : (after1 W main_v50 : S100096x128.Idx → EReal) = padArr (extractStridedSlice S100000x128 ![0, 0] (W main_v38 : S100096x128.Idx → EReal) slices_S100096x128_S100000x128_0_0) := by
  unfold after1 padArr; after_results_simp <;> rfl

theorem ops1_agg : (after1 W main_v51 : S100096x128.Idx → EReal) = padArr (aggArr (extractStridedSlice S100000x128 ![0, 0] (W main_v38 : S100096x128.Idx → EReal) slices_S100096x128_S100000x128_0_0) (W main_v1) (W main_v3)) := by
  have e : (after hostOps1 W main_v49 : S100000x128.Idx → EReal) = aggArr (extractStridedSlice S100000x128 ![0, 0] (W main_v38 : S100096x128.Idx → EReal) slices_S100096x128_S100000x128_0_0) (W main_v1) (W main_v3) := by
    unfold aggArr; after_results_simp <;> rfl
  rw [← e]; unfold after1 padArr; generalize after hostOps1 W = W'; after_results_simp <;> rfl

theorem ops1_W1 : cur2 (after1 W main_v53 : S128x128.Idx → EReal) = cur3 (W main_arg3) 1 := by
  funext p q; unfold after1; after_results_simp; exact slab_apply 1 (by norm_num) _ _ _ p q
theorem ops1_b1 : (fun k => (after1 W main_v56 : S1x128.Idx → EReal) (ix2 0 k)) = cur2 (W main_arg4) 1 := by
  funext k; unfold after1; after_results_simp; exact rowVec_asRow_apply 1 (by norm_num) _ _ _ _ 0 k
theorem ops1_g : (fun k => (after1 W main_v59 : S1x128.Idx → EReal) (ix2 0 k)) = cur2 (W main_arg5) 1 := by
  funext k; unfold after1; after_results_simp; exact rowVec_asRow_apply 1 (by norm_num) _ _ _ _ 0 k
theorem ops1_b : (fun k => (after1 W main_v62 : S1x128.Idx → EReal) (ix2 0 k)) = cur2 (W main_arg6) 1 := by
  funext k; unfold after1; after_results_simp; exact rowVec_asRow_apply 1 (by norm_num) _ _ _ _ 0 k
theorem ops1_mu : (fun k => (after1 W main_v65 : S1x128.Idx → EReal) (ix2 0 k)) = cur2 (W main_arg7) 1 := by
  funext k; unfold after1; after_results_simp; exact rowVec_asRow_apply 1 (by norm_num) _ _ _ _ 0 k
theorem ops1_v : (fun k => (after1 W main_v68 : S1x128.Idx → EReal) (ix2 0 k)) = cur2 (W main_arg8) 1 := by
  funext k; unfold after1; after_results_simp; exact rowVec_asRow_apply 1 (by norm_num) _ _ _ _ 0 k
theorem ops1_W2 : cur2 (after1 W main_v70 : S128x128.Idx → EReal) = cur3 (W main_arg9) 1 := by
  funext p q; unfold after1; after_results_simp; exact slab_apply 1 (by norm_num) _ _ _ p q
theorem ops1_b2 : (fun k => (after1 W main_v73 : S1x128.Idx → EReal) (ix2 0 k)) = cur2 (W main_arg10) 1 := by
  funext k; unfold after1; after_results_simp; exact rowVec_asRow_apply 1 (by norm_num) _ _ _ _ 0 k

end Cert.KernelIdeal.Hand
end
-- ==== Proof.KI.HostMlp2.lean ====
import proofs.«423486_j42142219108934_1_alg».proof.Proof.KI.HostLib

set_option maxRecDepth 4096

noncomputable section

namespace Cert.KernelIdeal.Hand

open Cert.KernelIdeal Cert.KernelIdeal.Gen
open Idealize.ShloMosaic Idealize.ShloMosaic.TcCoe Idealize.ShloMosaic.ValueIdx GinSpec
open Idealize.ShloMosaic.StableHlo

variable (W : Valuation τ sig (Elt Ideal))

abbrev after2 : Valuation τ sig (Elt Ideal) :=
  after hostOps2_4 (after hostOps2_3 (after hostOps2_2 (after hostOps2_1 (after hostOps2 W))))

theorem ops2_h : (after2 W main_v86 : S100096x128.Idx → EReal) = padArr (extractStridedSlice S100000x128 ![0, 0] (W main_v74 : S100096x128.Idx → EReal) slices_S100096x128_S100000x128_0_0) := by
  unfold after2 padArr; after_results_simp <;> rfl

theorem ops2_agg : (after2 W main_v87 : S100096x128.Idx → EReal) = padArr (aggArr (extractStridedSlice S100000x128 ![0, 0] (W main_v74 : S100096x128.Idx → EReal) slices_S100096x128_S100000x128_0_0) (W main_v1) (W main_v3)) := by
  have e : (after hostOps2 W main_v85 : S100000x128.Idx → EReal) = aggArr (extractStridedSlice S100000x128 ![0, 0] (W main_v74 : S100096x128.Idx → EReal) slices_S100096x128_S100000x128_0_0) (W main_v1) (W main_v3) := by
    unfold aggArr; after_results_simp <;> rfl
  rw [← e]; unfold after2 padArr; generalize after hostOps2 W = W'; after_results_simp <;> rfl

theorem ops2_W1 : cur2 (after2 W main_v89 : S128x128.Idx → EReal) = cur3 (W main_arg3) 2 := by
  funext p q; unfold after2; after_results_simp; exact slab_apply 2 (by norm_num) _ _ _ p q
theorem ops2_b1 : (fun k => (after2 W main_v92 : S1x128.Idx → EReal) (ix2 0 k)) = cur2 (W main_arg4) 2 := by
  funext k; unfold after2; after_results_simp; exact rowVec_asRow_apply 2 (by norm_num) _ _ _ _ 0 k
theorem ops2_g : (fun k => (after2 W main_v95 : S1x128.Idx → EReal) (ix2 0 k)) = cur2 (W main_arg5) 2 := by
  funext k; unfold after2; after_results_simp; exact rowVec_asRow_apply 2 (by norm_num) _ _ _ _ 0 k
theorem ops2_b : (fun k => (after2 W main_v98 : S1x128.Idx → EReal) (ix2 0 k)) = cur2 (W main_arg6) 2 := by
  funext k; unfold after2; after_results_simp; exact rowVec_asRow_apply 2 (by norm_num) _ _ _ _ 0 k
theorem ops2_mu : (fun k => (after2 W main_v101 : S1x128.Idx → EReal) (ix2 0 k)) = cur2 (W main_arg7) 2 := by
  funext k; unfold after2; after_results_simp; exact rowVec_asRow_apply 2 (by norm_num) _ _ _ _ 0 k
theorem ops2_v : (fun k => (after2 W main_v104 : S1x128.Idx → EReal) (ix2 0 k)) = cur2 (W main_arg8) 2 := by
  funext k; unfold after2; after_results_simp; exact rowVec_asRow_apply 2 (by norm_num) _ _ _ _ 0 k
theorem ops2_W2 : cur2 (after2 W main_v106 : S128x128.Idx → EReal) = cur3 (W main_arg9) 2 := by
  funext p q; unfold after2; after_results_simp; exact slab_apply 2 (by norm_num) _ _ _ p q
theorem ops2_b2 : (fun k => (after2 W main_v109 : S1x128.Idx → EReal) (ix2 0 k)) = cur2 (W main_arg10) 2 := by
  funext k; unfold after2; after_results_simp; exact rowVec_asRow_apply 2 (by norm_num) _ _ _ _ 0 k

end Cert.KernelIdeal.Hand
end
-- ==== Proof.KI.Stage.lean ====
import proofs.«423486_j42142219108934_1_alg».proof.Proof.KI.MlpArr0
import proofs.«423486_j42142219108934_1_alg».proof.Proof.KI.MlpArr1
import proofs.«423486_j42142219108934_1_alg».proof.Proof.KI.MlpArr2
import proofs.«423486_j42142219108934_1_alg».proof.Proof.KI.PoolArr
import proofs.«423486_j42142219108934_1_alg».proof.Proof.KI.Run
import proofs.«423486_j42142219108934_1_alg».proof.Proof.KI.HostMlp0
import proofs.«423486_j42142219108934_1_alg».proof.Proof.KI.HostMlp1
import proofs.«423486_j42142219108934_1_alg».proof.Proof.KI.HostMlp2

noncomputable section

namespace Cert.KernelIdeal.Hand

open Cert.KernelIdeal Cert.KernelIdeal.Gen
open Idealize.ShloMosaic Idealize.ShloMosaic.TcCoe Idealize.ShloMosaic.ValueIdx GinSpec

-- The perceptron row at padded features plus padded neighbourhood sums, with slab L of the parameters, is row r of layer L.
theorem layer_of_host {h a : S100096x128.Idx → EReal} {w1 w2 : S128x128.Idx → EReal} {b1 g b mu v b2 : S1x128.Idx → EReal}
    {x : S100000x128.Idx → EReal} {sw dw : S1600000.Idx → BitVec 32} {ei : S2x1600000.Idx → BitVec 32}
    {W1s W2s : S3x128x128.Idx → EReal} {b1s gs bs mus vs b2s : S3x128.Idx → EReal} {L : Fin 3}
    (hh : h = padArr x) (ha : a = padArr (aggArr x sw dw)) (hsw : sw = srcWords ei) (hdw : dw = dstWords ei)
    (hw1 : cur2 w1 = cur3 W1s L) (hb1 : (fun k => b1 (ix2 0 k)) = cur2 b1s L) (hg : (fun k => g (ix2 0 k)) = cur2 gs L)
    (hb : (fun k => b (ix2 0 k)) = cur2 bs L) (hmu : (fun k => mu (ix2 0 k)) = cur2 mus L)
    (hv : (fun k => v (ix2 0 k)) = cur2 vs L) (hw2 : cur2 w2 = cur3 W2s L) (hb2 : (fun k => b2 (ix2 0 k)) = cur2 b2s L)
    (r : Fin 100000) (k : Fin 128) :
    mlpRow (fun k' => h (ix2 ⟨r.val, by omega⟩ k') + a (ix2 ⟨r.val, by omega⟩ k')) (cur2 w1) (fun k => b1 (ix2 0 k))
        (fun k => g (ix2 0 k)) (fun k => b (ix2 0 k)) (fun k => mu (ix2 0 k)) (fun k => v (ix2 0 k)) (cur2 w2)
        (fun k => b2 (ix2 0 k)) k
      = layerAt ei W1s b1s gs bs mus vs W2s b2s L (cur2 x) r k := by
  subst hh ha hsw hdw
  rw [hw1, hb1, hg, hb, hmu, hv, hw2, hb2, show (fun k' => padArr x (ix2 ⟨r.val, by omega⟩ k')
      + padArr (aggArr x (srcWords ei) (dstWords ei)) (ix2 ⟨r.val, by omega⟩ k'))
    = fun k' => cur2 x r k' + agg (cur2 x) (srcOf ei) (dstOf ei) r k' from funext fun k' => congrArg₂ (· + ·)
      ((padArr_apply x _ k').trans (dif_pos r.isLt)) (((padArr_apply _ _ k').trans (dif_pos r.isLt)).trans (aggArr_apply x ei r k'))]
  rfl

variable (m : (ℓ : Loc nD τ sig) → Buf (Elt Ideal) ℓ) (outs : Gen.Outs (F := Ideal)) (c : Dev nD)

abbrev layerOf (L : Fin 3) : Rows → Rows :=
  layerAt (m ((c : Thread nD τ).loc main_arg1)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) L

theorem V6_v38 : (V6 m outs c main_v38 : S100096x128.Idx → EReal) = outs 6 main_v38 c :=
  Function.update_self (β := fun b : DevRef τ sig => b.ty.Contents (Elt Ideal)) (Proc.devRef .tc main_v38) (outs 6 main_v38 c) _
theorem V12_v74 : (V12 m outs c main_v74 : S100096x128.Idx → EReal) = outs 12 main_v74 c :=
  Function.update_self (β := fun b : DevRef τ sig => b.ty.Contents (Elt Ideal)) (Proc.devRef .tc main_v74) (outs 12 main_v74 c) _

theorem V6_v1 : (V6 m outs c main_v1 : S1600000.Idx → BitVec 32) = srcWords (hostEI m c) :=
  (V6_of m outs c main_v1 (by decide)).trans (V5_v1 m c)
theorem V6_v3 : (V6 m outs c main_v3 : S1600000.Idx → BitVec 32) = dstWords (hostEI m c) :=
  (V6_of m outs c main_v3 (by decide)).trans (V5_v3 m c)
theorem V12_v1 : (V12 m outs c main_v1 : S1600000.Idx → BitVec 32) = srcWords (hostEI m c) :=
  (V12_of m outs c main_v1 (by decide)).trans ((V11_keep m outs c main_v1).trans (V5_v1 m c))
theorem V12_v3 : (V12 m outs c main_v3 : S1600000.Idx → BitVec 32) = dstWords (hostEI m c) :=
  (V12_of m outs c main_v3 (by decide)).trans ((V11_keep m outs c main_v3).trans (V5_v3 m c))

theorem V6_arg (r : Ref sig .tc) (h1 : r ∉ hostOps0_W := by decide) (h2 : r ∉ hostOps0_1_W := by decide)
    (h3 : r ∉ hostOps0_2_W := by decide) (h4 : r ∉ hostOps0_3_W := by decide) (h5 : r ∉ hostOps0_4_W := by decide)
    (h6 : r ∉ ([main_v38] : List (Ref sig .tc)) := by decide) : V6 m outs c r = m ((c : Thread nD τ).loc r) :=
  (V6_of m outs c r h6).trans (V5_arg m c r h1 h2 h3 h4 h5)

theorem V12_arg (r : Ref sig .tc) (h1 : r ∉ hostOps0_W := by decide) (h2 : r ∉ hostOps0_1_W := by decide)
    (h3 : r ∉ hostOps0_2_W := by decide) (h4 : r ∉ hostOps0_3_W := by decide) (h5 : r ∉ hostOps0_4_W := by decide)
    (h6 : r ∉ ([main_v38] : List (Ref sig .tc)) := by decide) (h7 : r ∉ hostOps1_W := by decide)
    (h8 : r ∉ hostOps1_1_W := by decide) (h9 : r ∉ hostOps1_2_W := by decide) (h10 : r ∉ hostOps1_3_W := by decide)
    (h11 : r ∉ hostOps1_4_W := by decide) (h12 : r ∉ ([main_v74] : List (Ref sig .tc)) := by decide) :
    V12 m outs c r = m ((c : Thread nD τ).loc r) :=
  (V12_of m outs c r h12).trans <| (V11_keep m outs c r h6 h7 h8 h9 h10 h11).trans (V5_arg m c r h1 h2 h3 h4 h5)

theorem stage0 (r : Fin 100000) (k : Fin 128) :
    top ((dat0 (F := Ideal) (run_atRefs (V5 m)) c).arrAt 10 cfg0.N) r k
      = layerOf m c 0 (cur2 (m ((c : Thread nD τ).loc main_arg0))) r k :=
  (mlp0_arr (run_atRefs (V5 m)) c ⟨r.val, by omega⟩ k).trans
    (layer_of_host (ops0_h (V0 m c)) (ops0_agg _) rfl rfl (ops0_W1 _) (ops0_b1 _) (ops0_g _) (ops0_b _) (ops0_mu _) (ops0_v _) (ops0_W2 _) (ops0_b2 _) r k)

theorem stage1 (r : Fin 100000) (k : Fin 128) :
    top ((dat1 (F := Ideal) (run_atRefs (V11 m outs)) c).arrAt 10 cfg1.N) r k
      = layerOf m c 1 (top (outs 6 main_v38 c)) r k := by
  have e := (mlp1_arr (run_atRefs (V11 m outs)) c ⟨r.val, by omega⟩ k).trans
    (layer_of_host (ops1_h (V6 m outs c)) (ops1_agg _) (V6_v1 m outs c) (V6_v3 m outs c) (ops1_W1 _) (ops1_b1 _) (ops1_g _) (ops1_b _) (ops1_mu _) (ops1_v _) (ops1_W2 _) (ops1_b2 _) r k)
  rw [V6_v38, headArr_cur2, V6_arg m outs c main_arg3, V6_arg m outs c main_arg4, V6_arg m outs c main_arg5, V6_arg m outs c main_arg6, V6_arg m outs c main_arg7, V6_arg m outs c main_arg8, V6_arg m outs c main_arg9, V6_arg m outs c main_arg10] at e
  exact e

theorem stage2 (r : Fin 100000) (k : Fin 128) :
    top ((dat2 (F := Ideal) (run_atRefs (V17 m outs)) c).arrAt 10 cfg2.N) r k
      = layerOf m c 2 (top (outs 12 main_v74 c)) r k := by
  have e := (mlp2_arr (run_atRefs (V17 m outs)) c ⟨r.val, by omega⟩ k).trans
    (layer_of_host (ops2_h (V12 m outs c)) (ops2_agg _) (V12_v1 m outs c) (V12_v3 m outs c) (ops2_W1 _) (ops2_b1 _) (ops2_g _) (ops2_b _) (ops2_mu _) (ops2_v _) (ops2_W2 _) (ops2_b2 _) r k)
  rw [V12_v74, headArr_cur2, V12_arg m outs c main_arg3, V12_arg m outs c main_arg4, V12_arg m outs c main_arg5, V12_arg m outs c main_arg6, V12_arg m outs c main_arg7, V12_arg m outs c main_arg8, V12_arg m outs c main_arg9, V12_arg m outs c main_arg10] at e
  exact e

theorem stage3 (g : Fin 256) (j : Fin 128) :
    ((dat3 (F := Ideal) (run_atRefs (V23 m outs)) c).arrAt 6 cfg3.N : S256x128.Idx → EReal) (ix2 g j)
      = head (top (outs 18 main_v110 c)) (cur1 (m ((c : Thread nD τ).loc main_arg2))) (cur2 (m ((c : Thread nD τ).loc main_arg11))) (cur1 (m ((c : Thread nD τ).loc main_arg12)))
          (cur1 (m ((c : Thread nD τ).loc main_arg13))) (cur1 (m ((c : Thread nD τ).loc main_arg14))) g j :=
  pool_value m outs c g j

end Cert.KernelIdeal.Hand
end
-- ==== Proof.KI.Value.lean ====
import proofs.«423486_j42142219108934_1_alg».proof.Proof.KI.Main
import proofs.«423486_j42142219108934_1_alg».proof.Proof.KI.Stage

noncomputable section

namespace Cert.KernelIdeal.Hand

open Cert.KernelIdeal Cert.KernelIdeal.Gen Idealize.ShloMosaic Idealize.ShloMosaic.TcCoe Idealize.SL.Sem
open Idealize.ShloMosaic.ValueIdx GinSpec

variable (m : (ℓ : Loc nD τ sig) → Buf (Elt Ideal) ℓ)

theorem run_value (ρ : Dev nD → PrngReg) :
    θ_run defs (onTc (τ := τ) (main (F := Ideal))) ⟨m, fun _ => 0, ρ⟩ fun r => ∀ c : Dev nD,
      r.2.mem ((c.tc : Thread nD τ).loc main_v118) = GinSpec.forwardArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have ends (b : Ref sig .tc) (hb : ¬ (Proc.devRef (τ := τ) .tc b).isScoped := by decide) :=
      h c (Proc.devRef .tc b) (Finset.mem_filter.mpr ⟨StableHlo.devRef_mem_tcRefs b, hb⟩)
    ⟨(ends main_v118).trans <| (result_eq m c).trans <|
        forwardArr_of_padded _ _ _ _ _ _ _ _ _ _ _ _ _ _ _ (a0 m c) (a1 m c) (a2 m c) (a3 m c) (stage0 m c)
          (fun r k => by rw [a1_eq, ← outs_38]; exact stage1 m (outs m) c r k)
          (fun r k => by rw [a2_eq, ← outs_74]; exact stage2 m (outs m) c r k)
          (fun g j => by rw [a3_eq, ← outs_110]; exact stage3 m (outs m) c g j),
      (ends main_arg0).trans (V24_main_arg0 m (outs m) c),
      (ends main_arg1).trans (V24_main_arg1 m (outs m) c), (ends main_arg2).trans (V24_main_arg2 m (outs m) c),
      (ends main_arg3).trans (V24_main_arg3 m (outs m) c), (ends main_arg4).trans (V24_main_arg4 m (outs m) c),
      (ends main_arg5).trans (V24_main_arg5 m (outs m) c), (ends main_arg6).trans (V24_main_arg6 m (outs m) c),
      (ends main_arg7).trans (V24_main_arg7 m (outs m) c), (ends main_arg8).trans (V24_main_arg8 m (outs m) c),
      (ends main_arg9).trans (V24_main_arg9 m (outs m) c), (ends main_arg10).trans (V24_main_arg10 m (outs m) c),
      (ends main_arg11).trans (V24_main_arg11 m (outs m) c), (ends main_arg12).trans (V24_main_arg12 m (outs m) c),
      (ends main_arg13).trans (V24_main_arg13 m (outs m) c), (ends main_arg14).trans (V24_main_arg14 m (outs m) c)⟩)
    (run_main m ρ)

end Cert.KernelIdeal.Hand
end
-- ==== Proof.Ref.Ops.lean ====
import proofs.«423486_j42142219108934_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the operation writes exactly the reference of index i; the other two conjuncts are what running a line asks of each operation
abbrev Wr (op : HloOp τ sig (Elt F)) (i : ℕ) : Prop :=
  ∃ y : Ref sig .tc, op.writes = {Proc.devRef .tc y} ∧ y.idx = i ∧ op.fresh = ∅ ∧ op.bufs ⊆ tcRefs τ sig

theorem Wr.mem {ops : List (HloOp τ sig (Elt F))} {W : List ℕ} (h : List.Forall₂ Wr ops W) :
    ∀ op ∈ ops, ∃ i ∈ W, Wr op i := by
  induction h with
  | nil => exact fun _ h => nomatch h
  | cons hw _ ih =>
    intro op hop
    rcases List.mem_cons.mp hop with rfl | hop
    · exact ⟨_, List.mem_cons_self, hw⟩
    · obtain ⟨y, hy, h⟩ := ih op hop
      exact ⟨y, List.mem_cons_of_mem _ hy, h⟩

-- a reference whose index is not among the written ones keeps its contents through the line
theorem keep {ops : List (HloOp τ sig (Elt F))} {W : List ℕ} (h : List.Forall₂ Wr ops W)
    (V : Valuation τ sig (Elt F)) {r : Ref sig .tc} (hr : (r.idx : ℕ) ∉ W) :
    after ops V (Proc.devRef .tc r) = V (Proc.devRef .tc r) :=
  after_of_forall_not_mem ops V fun op hop hb => by
    obtain ⟨i, hi, y, hw, rfl, -⟩ := Wr.mem h op hop
    rw [hw, Finset.mem_singleton] at hb
    exact hr (Proc.devRef_injective _ hb ▸ hi)

abbrev ops0 : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_c (constantI S_ 32 0#32),
    StableHlo.unary main_c main_v4 (broadcastInDim S1600000 ![] bcast_S_S1600000),
    StableHlo.binary main_v1 main_v4 main_v5 (cmpi .slt),
    StableHlo.nullary main_c_0 (constantI S_ 32 100000#32),
    StableHlo.unary main_c_0 main_v6 (broadcastInDim S1600000 ![] bcast_S_S1600000),
    StableHlo.binary main_v1 main_v6 main_v7 addi,
    StableHlo.ternary main_v5 main_v7 main_v1 main_v8 select,
    StableHlo.unary main_v8 main_v9 (broadcastInDim S1600000x1 ![0] bcast_S1600000_S1600000x1_0),
    StableHlo.binary main_arg0 main_v9 main_v10 (fun x i => Host.gather gather_S100000x128_S1600000x1_S1600000x128_1_0_n_n_0_1_1128 x i),
    StableHlo.nullary main_cst (constant S_ .f32 0x00000000#32),
    StableHlo.unary main_cst main_v11 (broadcastInDim S100000x128 ![] bcast_S_S100000x128),
    StableHlo.unary main_v3 main_v12 (broadcastInDim S1600000x1 ![0] bcast_S1600000_S1600000x1_0),
    StableHlo.ternary main_v11 main_v12 main_v10 main_v13 (fun x i u => Host.scatterAdd scatter_S100000x128_S1600000x1_S1600000x128_1_0_0_1 x i u),
    StableHlo.binary main_arg0 main_v13 main_v14 addf,
    StableHlo.unary main_arg3 main_v15 (extractStridedSlice S1x128x128 ![0, 0, 0] · slices_S3x128x128_S1x128x128_0_0_0),
    StableHlo.reshape main_v15 main_v16 rfl shapeCasts_S1x128x128_S128x128,
    StableHlo.binary main_v14 main_v16 main_v17 (fun l r => Host.dotGeneral dot_S100000x128_S128x128_S100000x128_1_0_0_1_n_n none l r),
    StableHlo.unary main_arg4 main_v18 (extractStridedSlice S1x128 ![0, 0] · slices_S3x128_S1x128_0_0),
    StableHlo.reshape main_v18 main_v19 rfl shapeCasts_S1x128_S128,
    StableHlo.unary main_v19 main_v20 (broadcastInDim S1x128 ![1] bcast_S128_S1x128_1),
    StableHlo.unary main_v20 main_v21 (broadcastInDim S100000x128 ![0, 1] bcast_S1x128_S100000x128_0_1),
    StableHlo.binary main_v17 main_v21 main_v22 addf,
    StableHlo.unary main_arg7 main_v23 (extractStridedSlice S1x128 ![0, 0] · slices_S3x128_S1x128_0_0),
    StableHlo.reshape main_v23 main_v24 rfl shapeCasts_S1x128_S128,
    StableHlo.unary main_v24 main_v25 (broadcastInDim S1x128 ![1] bcast_S128_S1x128_1),
    StableHlo.unary main_v25 main_v26 (broadcastInDim S100000x128 ![0, 1] bcast_S1x128_S100000x128_0_1),
    StableHlo.binary main_v22 main_v26 main_v27 subf,
    StableHlo.unary main_arg8 main_v28 (extractStridedSlice S1x128 ![0, 0] · slices_S3x128_S1x128_0_0),
    StableHlo.reshape main_v28 main_v29 rfl shapeCasts_S1x128_S128,
    StableHlo.nullary main_cst_1 (constant S_ .f32 0x3727C5AC#32),
    StableHlo.unary main_cst_1 main_v30 (broadcastInDim S128 ![] bcast_S_S128),
    StableHlo.binary main_v29 main_v30 main_v31 addf,
    StableHlo.unary main_v31 main_v32 Host.rsqrt,
    StableHlo.unary main_v32 main_v33 (broadcastInDim S1x128 ![1] bcast_S128_S1x128_1),
    StableHlo.unary main_v33 main_v34 (broadcastInDim S100000x128 ![0, 1] bcast_S1x128_S100000x128_0_1),
    StableHlo.binary main_v27 main_v34 main_v35 mulf,
    StableHlo.unary main_arg5 main_v36 (extractStridedSlice S1x128 ![0, 0] · slices_S3x128_S1x128_0_0),
    StableHlo.reshape main_v36 main_v37 rfl shapeCasts_S1x128_S128,
    StableHlo.unary main_v37 main_v38 (broadcastInDim S1x128 ![1] bcast_S128_S1x128_1),
    StableHlo.unary main_v38 main_v39 (broadcastInDim S100000x128 ![0, 1] bcast_S1x128_S100000x128_0_1),
    StableHlo.binary main_v35 main_v39 main_v40 mulf,
    StableHlo.unary main_arg6 main_v41 (extractStridedSlice S1x128 ![0, 0] · slices_S3x128_S1x128_0_0),
    StableHlo.reshape main_v41 main_v42 rfl shapeCasts_S1x128_S128,
    StableHlo.unary main_v42 main_v43 (broadcastInDim S1x128 ![1] bcast_S128_S1x128_1),
    StableHlo.unary main_v43 main_v44 (broadcastInDim S100000x128 ![0, 1] bcast_S1x128_S100000x128_0_1),
    StableHlo.binary main_v40 main_v44 main_v45 addf,
    StableHlo.TRef.nullary main_call0.cst (constant S_ .f32 0x00000000#32),
    StableHlo.TRef.unary main_call0.cst main_call0.v0 (broadcastInDim S100000x128 ![] bcast_S_S100000x128),
    StableHlo.TRef.binary (.of main_v45 : StableHlo.TRef sig ⟨S100000x128, .f32⟩) main_call0.v0 main_call0.v1 maximumf,
    StableHlo.unary main_arg9 main_v47 (extractStridedSlice S1x128x128 ![0, 0, 0] · slices_S3x128x128_S1x128x128_0_0_0),
    StableHlo.reshape main_v47 main_v48 rfl shapeCasts_S1x128x128_S128x128,
    StableHlo.binary main_v46 main_v48 main_v49 (fun l r => Host.dotGeneral dot_S100000x128_S128x128_S100000x128_1_0_0_1_n_n none l r),
    StableHlo.unary main_arg10 main_v50 (extractStridedSlice S1x128 ![0, 0] · slices_S3x128_S1x128_0_0),
    StableHlo.reshape main_v50 main_v51 rfl shapeCasts_S1x128_S128,
    StableHlo.unary main_v51 main_v52 (broadcastInDim S1x128 ![1] bcast_S128_S1x128_1),
    StableHlo.unary main_v52 main_v53 (broadcastInDim S100000x128 ![0, 1] bcast_S1x128_S100000x128_0_1),
    StableHlo.binary main_v49 main_v53 main_v54 addf,
    StableHlo.TRef.nullary main_call1.cst (constant S_ .f32 0x00000000#32),
    StableHlo.TRef.unary main_call1.cst main_call1.v0 (broadcastInDim S100000x128 ![] bcast_S_S100000x128),
    StableHlo.TRef.binary (.of main_v54 : StableHlo.TRef sig ⟨S100000x128, .f32⟩) main_call1.v0 main_call1.v1 maximumf ]

abbrev ops0_W : List ℕ := List.range' 15 64

theorem ops0_wr : List.Forall₂ Wr (ops0 (F := F)) ops0_W := by
  repeat' constructor
  all_goals with_reducible first | exact unary_bufs_sub .. | exact binary_bufs_sub .. | exact reshape_bufs_sub .. | exact nullary_bufs_sub .. | exact ternary_bufs_sub ..

abbrev ops1 : List (HloOp τ sig (Elt F)) :=
  [ StableHlo.nullary main_c_2 (constantI S_ 32 0#32),
    StableHlo.unary main_c_2 main_v56 (broadcastInDim S1600000 ![] bcast_S_S1600000),
    StableHlo.binary main_v1 main_v56 main_v57 (cmpi .slt),
    StableHlo.nullary main_c_3 (constantI S_ 32 100000#32),
    StableHlo.unary main_c_3 main_v58 (broadcastInDim S1600000 ![] bcast_S_S1600000),
    StableHlo.binary main_v1 main_v58 main_v59 addi,
    StableHlo.ternary main_v57 main_v59 main_v1 main_v60 select,
    StableHlo.unary main_v60 main_v61 (broadcastInDim S1600000x1 ![0] bcast_S1600000_S1600000x1_0),
    StableHlo.binary main_v55 main_v61 main_v62 (fun x i => Host.gather gather_S100000x128_S1600000x1_S1600000x128_1_0_n_n_0_1_1128 x i),
    StableHlo.nullary main_cst_4 (constant S_ .f32 0x00000000#32),
    StableHlo.unary main_cst_4 main_v63 (broadcastInDim S100000x128 ![] bcast_S_S100000x128),
    StableHlo.unary main_v3 main_v64 (broadcastInDim S1600000x1 ![0] bcast_S1600000_S1600000x1_0),
    StableHlo.ternary main_v63 main_v64 main_v62 main_v65 (fun x i u => Host.scatterAdd scatter_S100000x128_S1600000x1_S1600000x128_1_0_0_1 x i u),
    StableHlo.binary main_v55 main_v65 main_v66 addf,
    StableHlo.unary main_arg3 main_v67 (extractStridedSlice S1x128x128 ![1, 0, 0] · slices_S3x128x128_S1x128x128_1_0_0),
    StableHlo.reshape main_v67 main_v68 rfl shapeCasts_S1x128x128_S128x128,
    StableHlo.binary main_v66 main_v68 main_v69 (fun l r => Host.dotGeneral dot_S100000x128_S128x128_S100000x128_1_0_0_1_n_n none l r),
    StableHlo.unary main_arg4 main_v70 (extractStridedSlice S1x128 ![1, 0] · slices_S3x128_S1x128_1_0),
    StableHlo.reshape main_v70 main_v71 rfl shapeCasts_S1x128_S128,
    StableHlo.unary main_v71 main_v72 (broadcastInDim S1x128 ![1] bcast_S128_S1x128_1),
    StableHlo.unary main_v72 main_v73 (broadcastInDim S100000x128 ![0, 1] bcast_S1x128_S100000x128_0_1),
    StableHlo.binary main_v69 main_v73 main_v74 addf,
    StableHlo.unary main_arg7 main_v75 (extractStridedSlice S1x128 ![1, 0] · slices_S3x128_S1x128_1_0),
    StableHlo.reshape main_v75 main_v76 rfl shapeCasts_S1x128_S128,
    StableHlo.unary main_v76 main_v77 (broadcastInDim S1x128 ![1] bcast_S128_S1x128_1),
    StableHlo.unary main_v77 main_v78 (broadcastInDim S100000x128 ![0, 1] bcast_S1x128_S100000x128_0_1),
    StableHlo.binary main_v74 main_v78 main_v79 subf,
    StableHlo.unary main_arg8 main_v80 (extractStridedSlice S1x128 ![1, 0] · slices_S3x128_S1x128_1_0),
    StableHlo.reshape main_v80 main_v81 rfl shapeCasts_S1x128_S128,
    StableHlo.nullary main_cst_5 (constant S_ .f32 0x3727C5AC#32),
    StableHlo.unary main_cst_5 main_v82 (broadcastInDim S128 ![] bcast_S_S128),
    StableHlo.binary main_v81 main_v82 main_v83 addf,
    StableHlo.unary main_v83 main_v84 Host.rsqrt,
    StableHlo.unary main_v84 main_v85 (broadcastInDim S1x128 ![1] bcast_S128_S1x128_1),
    StableHlo.unary main_v85 main_v86 (broadcastInDim S100000x128 ![0, 1] bcast_S1x128_S100000x128_0_1),
    StableHlo.binary main_v79 main_v86 main_v87 mulf,
    StableHlo.unary main_arg5 main_v88 (extractStridedSlice S1x128 ![1, 0] · slices_S3x128_S1x128_1_0),
    StableHlo.reshape main_v88 main_v89 rfl shapeCasts_S1x128_S128,
    StableHlo.unary main_v89 main_v90 (broadcastInDim S1x128 ![1] bcast_S128_S1x128_1),
    StableHlo.unary main_v90 main_v91 (broadcastInDim S100000x128 ![0, 1] bcast_S1x128_S100000x128_0_1),
    StableHlo.binary main_v87 main_v91 main_v92 mulf,
    StableHlo.unary main_arg6 main_v93 (extractStridedSlice S1x128 ![1, 0] · slices_S3x128_S1x128_1_0),
    StableHlo.reshape main_v93 main_v94 rfl shapeCasts_S1x128_S128,
    StableHlo.unary main_v94 main_v95 (broadcastInDim S1x128 ![1] bcast_S128_S1x128_1),
    StableHlo.unary main_v95 main_v96 (broadcastInDim S100000x128 ![0, 1] bcast_S1x128_S100000x128_0_1),
    StableHlo.binary main_v92 main_v96 main_v97 addf,
    StableHlo.TRef.nullary main_call2.cst (constant S_ .f32 0x00000000#32),
    StableHlo.TRef.unary main_call2.cst main_call2.v0 (broadcastInDim S100000x128 ![] bcast_S_S100000x128),
    StableHlo.TRef.binary (.of main_v97 : StableHlo.TRef sig ⟨S100000x128, .f32⟩) main_call2.v0 main_call2.v1 maximumf,
    StableHlo.unary main_arg9 main_v99 (extractStridedSlice S1x128x128 ![1, 0, 0] · slices_S3x128x128_S1x128x128_1_0_0),
    StableHlo.reshape main_v99 main_v100 rfl shapeCasts_S1x128x128_S128x128,
    StableHlo.binary main_v98 main_v100 main_v101 (fun l r => Host.dotGeneral dot_S100000x128_S128x128_S100000x128_1_0_0_1_n_n none l r),
    StableHlo.unary main_arg10 main_v102 (extractStridedSlice S1x128 ![1, 0] · slices_S3x128_S1x128_1_0),
    StableHlo.reshape main_v102 main_v103 rfl shapeCasts_S1x128_S128,
    StableHlo.unary main_v103 main_v104 (broadcastInDim S1x128 ![1] bcast_S128_S1x128_1),
    StableHlo.unary main_v104 main_v105 (broadcastInDim S100000x128 ![0, 1] bcast_S1x128_S100000x128_0_1),
    StableHlo.binary main_v101 main_v105 main_v106 addf,
    StableHlo.TRef.nullary main_call3.cst (constant S_ .f32 0x00000000#32),
    StableHlo.TRef.unary main_call3.cst main_call3.v0 (broadcastInDim S100000x128 ![] bcast_S_S100000x128),
    StableHlo.TRef.binary (.of main_v106 : StableHlo.TRef sig ⟨S100000x128, .f32⟩) main_call3.v0 main_call3.v1 maximumf,
    StableHlo.nullary main_c_6 (constantI S_ 32 0#32),
    StableHlo.unary main_c_6 main_v108 (broadcastInDim S1600000 ![] bcast_S_S1600000),
    StableHlo.binary main_v1 main_v108 main_v109 (cmpi .slt),
    StableHlo.nullary main_c_7 (constantI S_ 32 100000#32) ]

abbrev ops1_W : List ℕ := List.range' 79 64

theorem ops1_wr : List.Forall₂ Wr (ops1 (F := F)) ops1_W := by
  repeat' constructor
  all_goals with_reducible first | exact unary_bufs_sub .. | exact binary_bufs_sub .. | exact reshape_bufs_sub .. | exact nullary_bufs_sub .. | exact ternary_bufs_sub ..

abbrev ops2 : List (HloOp τ sig (Elt F)) :=
  [ StableHlo.unary main_c_7 main_v110 (broadcastInDim S1600000 ![] bcast_S_S1600000),
    StableHlo.binary main_v1 main_v110 main_v111 addi,
    StableHlo.ternary main_v109 main_v111 main_v1 main_v112 select,
    StableHlo.unary main_v112 main_v113 (broadcastInDim S1600000x1 ![0] bcast_S1600000_S1600000x1_0),
    StableHlo.binary main_v107 main_v113 main_v114 (fun x i => Host.gather gather_S100000x128_S1600000x1_S1600000x128_1_0_n_n_0_1_1128 x i),
    StableHlo.nullary main_cst_8 (constant S_ .f32 0x00000000#32),
    StableHlo.unary main_cst_8 main_v115 (broadcastInDim S100000x128 ![] bcast_S_S100000x128),
    StableHlo.unary main_v3 main_v116 (broadcastInDim S1600000x1 ![0] bcast_S1600000_S1600000x1_0),
    StableHlo.ternary main_v115 main_v116 main_v114 main_v117 (fun x i u => Host.scatterAdd scatter_S100000x128_S1600000x1_S1600000x128_1_0_0_1 x i u),
    StableHlo.binary main_v107 main_v117 main_v118 addf,
    StableHlo.unary main_arg3 main_v119 (extractStridedSlice S1x128x128 ![2, 0, 0] · slices_S3x128x128_S1x128x128_2_0_0),
    StableHlo.reshape main_v119 main_v120 rfl shapeCasts_S1x128x128_S128x128,
    StableHlo.binary main_v118 main_v120 main_v121 (fun l r => Host.dotGeneral dot_S100000x128_S128x128_S100000x128_1_0_0_1_n_n none l r),
    StableHlo.unary main_arg4 main_v122 (extractStridedSlice S1x128 ![2, 0] · slices_S3x128_S1x128_2_0),
    StableHlo.reshape main_v122 main_v123 rfl shapeCasts_S1x128_S128,
    StableHlo.unary main_v123 main_v124 (broadcastInDim S1x128 ![1] bcast_S128_S1x128_1),
    StableHlo.unary main_v124 main_v125 (broadcastInDim S100000x128 ![0, 1] bcast_S1x128_S100000x128_0_1),
    StableHlo.binary main_v121 main_v125 main_v126 addf,
    StableHlo.unary main_arg7 main_v127 (extractStridedSlice S1x128 ![2, 0] · slices_S3x128_S1x128_2_0),
    StableHlo.reshape main_v127 main_v128 rfl shapeCasts_S1x128_S128,
    StableHlo.unary main_v128 main_v129 (broadcastInDim S1x128 ![1] bcast_S128_S1x128_1),
    StableHlo.unary main_v129 main_v130 (broadcastInDim S100000x128 ![0, 1] bcast_S1x128_S100000x128_0_1),
    StableHlo.binary main_v126 main_v130 main_v131 subf,
    StableHlo.unary main_arg8 main_v132 (extractStridedSlice S1x128 ![2, 0] · slices_S3x128_S1x128_2_0),
    StableHlo.reshape main_v132 main_v133 rfl shapeCasts_S1x128_S128,
    StableHlo.nullary main_cst_9 (constant S_ .f32 0x3727C5AC#32),
    StableHlo.unary main_cst_9 main_v134 (broadcastInDim S128 ![] bcast_S_S128),
    StableHlo.binary main_v133 main_v134 main_v135 addf,
    StableHlo.unary main_v135 main_v136 Host.rsqrt,
    StableHlo.unary main_v136 main_v137 (broadcastInDim S1x128 ![1] bcast_S128_S1x128_1),
    StableHlo.unary main_v137 main_v138 (broadcastInDim S100000x128 ![0, 1] bcast_S1x128_S100000x128_0_1),
    StableHlo.binary main_v131 main_v138 main_v139 mulf,
    StableHlo.unary main_arg5 main_v140 (extractStridedSlice S1x128 ![2, 0] · slices_S3x128_S1x128_2_0),
    StableHlo.reshape main_v140 main_v141 rfl shapeCasts_S1x128_S128,
    StableHlo.unary main_v141 main_v142 (broadcastInDim S1x128 ![1] bcast_S128_S1x128_1),
    StableHlo.unary main_v142 main_v143 (broadcastInDim S100000x128 ![0, 1] bcast_S1x128_S100000x128_0_1),
    StableHlo.binary main_v139 main_v143 main_v144 mulf,
    StableHlo.unary main_arg6 main_v145 (extractStridedSlice S1x128 ![2, 0] · slices_S3x128_S1x128_2_0),
    StableHlo.reshape main_v145 main_v146 rfl shapeCasts_S1x128_S128,
    StableHlo.unary main_v146 main_v147 (broadcastInDim S1x128 ![1] bcast_S128_S1x128_1),
    StableHlo.unary main_v147 main_v148 (broadcastInDim S100000x128 ![0, 1] bcast_S1x128_S100000x128_0_1),
    StableHlo.binary main_v144 main_v148 main_v149 addf,
    StableHlo.TRef.nullary main_call4.cst (constant S_ .f32 0x00000000#32),
    StableHlo.TRef.unary main_call4.cst main_call4.v0 (broadcastInDim S100000x128 ![] bcast_S_S100000x128),
    StableHlo.TRef.binary (.of main_v149 : StableHlo.TRef sig ⟨S100000x128, .f32⟩) main_call4.v0 main_call4.v1 maximumf,
    StableHlo.unary main_arg9 main_v151 (extractStridedSlice S1x128x128 ![2, 0, 0] · slices_S3x128x128_S1x128x128_2_0_0),
    StableHlo.reshape main_v151 main_v152 rfl shapeCasts_S1x128x128_S128x128,
    StableHlo.binary main_v150 main_v152 main_v153 (fun l r => Host.dotGeneral dot_S100000x128_S128x128_S100000x128_1_0_0_1_n_n none l r),
    StableHlo.unary main_arg10 main_v154 (extractStridedSlice S1x128 ![2, 0] · slices_S3x128_S1x128_2_0),
    StableHlo.reshape main_v154 main_v155 rfl shapeCasts_S1x128_S128,
    StableHlo.unary main_v155 main_v156 (broadcastInDim S1x128 ![1] bcast_S128_S1x128_1),
    StableHlo.unary main_v156 main_v157 (broadcastInDim S100000x128 ![0, 1] bcast_S1x128_S100000x128_0_1),
    StableHlo.binary main_v153 main_v157 main_v158 addf,
    StableHlo.TRef.nullary main_call5.cst (constant S_ .f32 0x00000000#32),
    StableHlo.TRef.unary main_call5.cst main_call5.v0 (broadcastInDim S100000x128 ![] bcast_S_S100000x128),
    StableHlo.TRef.binary (.of main_v158 : StableHlo.TRef sig ⟨S100000x128, .f32⟩) main_call5.v0 main_call5.v1 maximumf,
    StableHlo.nullary main_cst_10 (constant S_ .f32 0x3F800000#32),
    StableHlo.unary main_cst_10 main_v160 (broadcastInDim S100000 ![] bcast_S_S100000),
    StableHlo.nullary main_cst_11 (constant S_ .f32 0x00000000#32),
    StableHlo.unary main_cst_11 main_v161 (broadcastInDim S256 ![] bcast_S_S256),
    StableHlo.unary main_arg2 main_v162 (broadcastInDim S100000x1 ![0] bcast_S100000_S100000x1_0),
    StableHlo.ternary main_v161 main_v162 main_v160 main_v163 (fun x i u => Host.scatterAdd scatter_S256_S100000x1_S100000_n_0_0_1 x i u),
    StableHlo.nullary main_cst_12 (constant S_ .f32 0x00000000#32),
    StableHlo.unary main_cst_12 main_v164 (broadcastInDim S256x128 ![] bcast_S_S256x128) ]

abbrev ops2_W : List ℕ := List.range' 143 64

theorem ops2_wr : List.Forall₂ Wr (ops2 (F := F)) ops2_W := by
  repeat' constructor
  all_goals with_reducible first | exact unary_bufs_sub .. | exact binary_bufs_sub .. | exact reshape_bufs_sub .. | exact nullary_bufs_sub .. | exact ternary_bufs_sub ..

abbrev ops3 : List (HloOp τ sig (Elt F)) :=
  [ StableHlo.unary main_arg2 main_v165 (broadcastInDim S100000x1 ![0] bcast_S100000_S100000x1_0),
    StableHlo.ternary main_v164 main_v165 main_v159 main_v166 (fun x i u => Host.scatterAdd scatter_S256x128_S100000x1_S100000x128_1_0_0_1 x i u),
    StableHlo.nullary main_cst_13 (constant S_ .f32 0x3F800000#32),
    StableHlo.unary main_cst_13 main_v167 (broadcastInDim S256 ![] bcast_S_S256),
    StableHlo.binary main_v163 main_v167 main_v168 maximumf,
    StableHlo.unary main_v168 main_v169 (broadcastInDim S256x1 ![0] bcast_S256_S256x1_0),
    StableHlo.unary main_v169 main_v170 (broadcastInDim S256x128 ![0, 1] bcast_S256x1_S256x128_0_1),
    StableHlo.binary main_v166 main_v170 main_v171 Host.divf,
    StableHlo.binary main_v171 main_arg11 main_v172 (fun l r => Host.dotGeneral dot_S256x128_S128x128_S256x128_1_0_0_1_n_n none l r),
    StableHlo.unary main_arg12 main_v173 (broadcastInDim S1x128 ![1] bcast_S128_S1x128_1),
    StableHlo.unary main_v173 main_v174 (broadcastInDim S256x128 ![0, 1] bcast_S1x128_S256x128_0_1),
    StableHlo.binary main_v172 main_v174 main_v175 addf,
    StableHlo.nullary main_cst_14 (constant S_ .f32 0x00000000#32),
    StableHlo.binary main_v175 main_cst_14 main_v176 (fun x v => Host.reduceAdd x v reducesTo_S256x128_S256_d1 h_S_),
    StableHlo.unary main_v176 main_v177 (broadcastInDim S256x1 ![0] bcast_S256_S256x1_0),
    StableHlo.nullary main_cst_15 (constant S_ .f32 0x43000000#32),
    StableHlo.unary main_cst_15 main_v178 (broadcastInDim S256x1 ![] bcast_S_S256x1),
    StableHlo.binary main_v177 main_v178 main_v179 Host.divf,
    StableHlo.nullary main_c_16 (constantI S_ 32 0#32),
    StableHlo.TRef.nullary main_call6.cst (constant S_ .f32 0x00000000#32),
    StableHlo.TRef.binary (.of main_v175 : StableHlo.TRef sig ⟨S256x128, .f32⟩) main_call6.cst main_call6.v0 (fun x v => Host.reduceAdd x v reducesTo_S256x128_S256_d1 h_S_),
    StableHlo.TRef.unary main_call6.v0 main_call6.v1 (broadcastInDim S256x1 ![0] bcast_S256_S256x1_0),
    StableHlo.TRef.nullary main_call6.cst_0 (constant S_ .f32 0x43000000#32),
    StableHlo.TRef.unary main_call6.cst_0 main_call6.v2 (broadcastInDim S256x1 ![] bcast_S_S256x1),
    StableHlo.TRef.binary main_call6.v1 main_call6.v2 main_call6.v3 Host.divf,
    StableHlo.TRef.unary main_call6.v3 main_call6.v4 (broadcastInDim S256x128 ![0, 1] bcast_S256x1_S256x128_0_1),
    StableHlo.TRef.binary (.of main_v175 : StableHlo.TRef sig ⟨S256x128, .f32⟩) main_call6.v4 main_call6.v5 subf,
    StableHlo.TRef.binary main_call6.v5 main_call6.v5 main_call6.v6 mulf,
    StableHlo.TRef.unary (.of main_c_16 : StableHlo.TRef sig ⟨S_, .i32⟩) main_call6.v7 (sitofp .f32),
    StableHlo.TRef.nullary main_call6.cst_1 (constant S_ .f32 0x43000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S256x128_S256_d1 h_S_),
    StableHlo.TRef.unary main_call6.v9 main_call6.v10 (broadcastInDim S256x1 ![0] bcast_S256_S256x1_0),
    StableHlo.TRef.unary main_call6.v8 main_call6.v11 (broadcastInDim S256x1 ![] bcast_S_S256x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256x1 ![] bcast_S_S256x1),
    StableHlo.TRef.ternary main_call6.v13 main_call6.v12 main_call6.call0.v1 main_call6.call0.v2 (fun p a b => select (broadcastInDim S256x1 ![] bcast_S_S256x1 p) a b),
    StableHlo.unary main_v179 main_v181 (broadcastInDim S256x128 ![0, 1] bcast_S256x1_S256x128_0_1),
    StableHlo.binary main_v175 main_v181 main_v182 subf,
    StableHlo.nullary main_cst_17 (constant S_ .f32 0x3727C5AC#32),
    StableHlo.unary main_cst_17 main_v183 (broadcastInDim S256x1 ![] bcast_S_S256x1),
    StableHlo.binary main_v180 main_v183 main_v184 addf,
    StableHlo.unary main_v184 main_v185 Host.rsqrt,
    StableHlo.unary main_v185 main_v186 (broadcastInDim S256x128 ![0, 1] bcast_S256x1_S256x128_0_1),
    StableHlo.binary main_v182 main_v186 main_v187 mulf,
    StableHlo.unary main_arg13 main_v188 (broadcastInDim S1x128 ![1] bcast_S128_S1x128_1),
    StableHlo.unary main_v188 main_v189 (broadcastInDim S256x128 ![0, 1] bcast_S1x128_S256x128_0_1),
    StableHlo.binary main_v187 main_v189 main_v190 mulf,
    StableHlo.unary main_arg14 main_v191 (broadcastInDim S1x128 ![1] bcast_S128_S1x128_1),
    StableHlo.unary main_v191 main_v192 (broadcastInDim S256x128 ![0, 1] bcast_S1x128_S256x128_0_1),
    StableHlo.binary main_v190 main_v192 main_v193 addf ]

abbrev ops3_W : List ℕ := List.range' 207 56

theorem ops3_wr : List.Forall₂ Wr (ops3 (F := F)) ops3_W := by
  repeat' constructor
  all_goals with_reducible first | exact unary_bufs_sub .. | exact binary_bufs_sub .. | exact reshape_bufs_sub .. | exact nullary_bufs_sub .. | exact ternary_bufs_sub ..

abbrev opsAll : List (HloOp τ sig (Elt F)) := ops0 ++ ops1 ++ ops2 ++ ops3

abbrev opsAll_W : List ℕ := ops0_W ++ ops1_W ++ ops2_W ++ ops3_W

theorem opsAll_wr : List.Forall₂ Wr (opsAll (F := F)) opsAll_W :=
  List.rel_append (List.rel_append (List.rel_append ops0_wr ops1_wr) ops2_wr) ops3_wr

theorem main_eq (c : Dev nD) : main (F := F) c = seq (opsAll (F := F)) := by
  rw [seq_append, seq_append, seq_append, bind_assoc, bind_assoc]
  rfl

theorem after_split (V : Valuation τ sig (Elt F)) :
    after (opsAll (F := F)) V = after ops3 (after ops2 (after ops1 (after ops0 V))) := by
  rw [after_append, after_append, after_append]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (opsAll (F := F)) (launchContents m d) (Proc.devRef .tc b) :=
  run_seq (by decide) (by decide) defs main (fun _ => opsAll) main_eq
    (fun _ => List.forall_iff_forall_mem.mpr fun op h => (Wr.mem opsAll_wr op h).elim fun _ w => w.2.elim fun _ w => w.2.2.2) m ρ
    (fun _ op h => (Wr.mem opsAll_wr op h).elim fun _ w => w.2.elim fun _ w => w.2.2.1)

end Cert.ReferenceIdeal.Hand

end
-- ==== Proof.Ref.Layer.lean ====
import proofs.«423486_j42142219108934_1_alg».proof.ReferenceIdeal
import proofs.«423486_j42142219108934_1_alg».proof.Proof.GinSpec
import proofs.«423486_j42142219108934_1_alg».proof.Proof.LibAgg
import Idealize.ShloMosaic.Lib.StackMember

noncomputable section

open scoped BigOperators

namespace Cert.ReferenceIdeal.Hand

open Cert.ReferenceIdeal Idealize.ShloMosaic Idealize.ShloMosaic.ValueIdx GinSpec
open Facts₀

section Term

variable {F : FTy → Type} [FloatOps F] [Facts]
  (l : Nat) (hW : S3x128x128.Slices ![l, 0, 0] S1x128x128) (hV : S3x128.Slices ![l, 0] S1x128)
  (h : FVec F S100000x128 .f32) (ei : IVec S2x1600000 32) (W1s : FVec F S3x128x128 .f32)
  (b1s gs bs mus vs : FVec F S3x128 .f32) (W2s : FVec F S3x128x128 .f32) (b2s : FVec F S3x128 .f32)

def refEdgeRow (hs : S2x1600000.Slices ![l, 0] S1x1600000) : IVec S1600000 32 :=
  shapeCast S1600000 (extractStridedSlice S1x1600000 ![l, 0] ei hs) shapeCasts_S1x1600000_S1600000

def refNormed (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

def refAgg : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 (refEdgeRow 1 ei slices_S2x1600000_S1x1600000_1_0))
    (Host.gather gather_S100000x128_S1600000x1_S1600000x128_1_0_n_n_0_1_1128 h
      (broadcastInDim S1600000x1 ![0] bcast_S1600000_S1600000x1_0
        (refNormed (refEdgeRow 0 ei slices_S2x1600000_S1x1600000_0_0))))

def refRow (p : FVec F S3x128 .f32) : FVec F S128 .f32 :=
  shapeCast S128 (extractStridedSlice S1x128 ![l, 0] p hV) shapeCasts_S1x128_S128

def refStretch (v : FVec F S128 .f32) : FVec F S100000x128 .f32 :=
  broadcastInDim S100000x128 ![0, 1] bcast_S1x128_S100000x128_0_1 (broadcastInDim S1x128 ![1] bcast_S128_S1x128_1 v)

def refSlab (W : FVec F S3x128x128 .f32) : FVec F S128x128 .f32 :=
  shapeCast S128x128 (extractStridedSlice S1x128x128 ![l, 0, 0] W hW) shapeCasts_S1x128x128_S128x128

def refRelu (x : FVec F S100000x128 .f32) : FVec F S100000x128 .f32 :=
  maximumf x (broadcastInDim S100000x128 ![] bcast_S_S100000x128 (constant (F := F) S_ .f32 0x00000000#32))

def refScale : FVec F S128 .f32 :=
  Host.rsqrt (addf (refRow l hV vs) (broadcastInDim S128 ![] bcast_S_S128 (constant (F := F) S_ .f32 0x3727C5AC#32)))

def refHidden : FVec F S100000x128 .f32 :=
  refRelu
    (addf
      (mulf
        (mulf
          (subf
            (addf
              (Host.dotGeneral dot_S100000x128_S128x128_S100000x128_1_0_0_1_n_n none (addf h (refAgg h ei)) (refSlab l hW W1s))
              (refStretch (refRow l hV b1s)))
            (refStretch (refRow l hV mus)))
          (refStretch (refScale l hV vs)))
        (refStretch (refRow l hV gs)))
      (refStretch (refRow l hV bs)))

def refLayerAt : FVec F S100000x128 .f32 :=
  refRelu
    (addf
      (Host.dotGeneral dot_S100000x128_S128x128_S100000x128_1_0_0_1_n_n none (refHidden l hW hV h ei W1s b1s gs bs mus vs) (refSlab l hW W2s))
      (refStretch (refRow l hV b2s)))

def refLayer0 : FVec F S100000x128 .f32 :=
  refLayerAt 0 slices_S3x128x128_S1x128x128_0_0_0 slices_S3x128_S1x128_0_0 h ei W1s b1s gs bs mus vs W2s b2s

def refLayer1 : FVec F S100000x128 .f32 :=
  refLayerAt 1 slices_S3x128x128_S1x128x128_1_0_0 slices_S3x128_S1x128_1_0 h ei W1s b1s gs bs mus vs W2s b2s

def refLayer2 : FVec F S100000x128 .f32 :=
  refLayerAt 2 slices_S3x128x128_S1x128x128_2_0_0 slices_S3x128_S1x128_2_0 h ei W1s b1s gs bs mus vs W2s b2s

end Term

section Read

variable [Facts] (l : Nat) (hl : l < 3) (hW : S3x128x128.Slices ![l, 0, 0] S1x128x128) (hV : S3x128.Slices ![l, 0] S1x128)
  (h : FVec Ideal S100000x128 .f32) (ei : IVec S2x1600000 32) (W1s : FVec Ideal S3x128x128 .f32)
  (b1s gs bs mus vs : FVec Ideal S3x128 .f32) (W2s : FVec Ideal S3x128x128 .f32) (b2s : FVec Ideal S3x128 .f32)
  (r : Fin 100000) (j : Fin 128)

theorem refDot_apply (X : FVec Ideal S100000x128 .f32) (W : FVec Ideal S128x128 .f32) :
    Host.dotGeneral (F := Ideal) dot_S100000x128_S128x128_S100000x128_1_0_0_1_n_n none X W (ix2 r j) = ∑ k : Fin 128, X (ix2 r k) * W (ix2 k j) :=
  StackMember.dotGeneral_plain_apply (m := 100000) (n := 128) none X W r j

theorem refStretch_apply (v : FVec Ideal S128 .f32) : refStretch v (ix2 r j) = v (ix1 j) :=
  (broadcastInDim_oneRow_apply bcast_S1x128_S100000x128_0_1 _ r j).trans (vecAsRow_apply bcast_S128_S1x128_1 v 0 j)

theorem refRow_apply {F : FTy → Type} [FloatOps F] (p : FVec F S3x128 .f32) : refRow l hV p (ix1 j) = p (ix2 ⟨l, hl⟩ j) :=
  rowVec_apply l hl p hV shapeCasts_S1x128_S128 j

theorem refScale_apply : refScale l hV vs (ix1 j) = Ideal.rsqrt (vs (ix2 ⟨l, hl⟩ j) + eps) := by
  show Ideal.rsqrt (refRow l hV vs (ix1 j)
      + broadcastInDim S128 ![] bcast_S_S128 (constant (F := Ideal) S_ .f32 0x3727C5AC#32) (ix1 j)) = _
  rw [broadcastInDim_scalar_apply bcast_S_S128, constant_apply, refRow_apply l hl]

theorem refSlab_apply {F : FTy → Type} [FloatOps F] (W : FVec F S3x128x128 .f32) (p q : Fin 128) :
    refSlab l hW W (ix2 p q) = W (ix3 ⟨l, hl⟩ p q) :=
  slab_apply l hl W hW shapeCasts_S1x128x128_S128x128 p q

theorem refRelu_apply (x : FVec Ideal S100000x128 .f32) : refRelu x (ix2 r j) = max (x (ix2 r j)) 0 := by
  unfold refRelu
  rw [maximumf_apply, broadcastInDim_scalar_apply, constant_apply, Ideal.ofBits_zero_f32]

theorem refAgg_apply : refAgg h ei (ix2 r j) = agg (cur2 h) (fun e => normWord (ei (ix2 0 e))) (fun e => ei (ix2 1 e)) r j :=
  agg_apply gather_S100000x128_S1600000x1_S1600000x128_1_0_n_n_0_1_1128 rfl rfl rfl rfl rfl rfl rfl
    scatter_S100000x128_S1600000x1_S1600000x128_1_0_0_1 rfl rfl rfl rfl h ei
    slices_S2x1600000_S1x1600000_0_0 slices_S2x1600000_S1x1600000_1_0 shapeCasts_S1x1600000_S1600000
    bcast_S_S1600000 bcast_S1600000_S1600000x1_0 bcast_S_S100000x128 r j

theorem refLayerAt_apply :
    refLayerAt l hW hV h ei W1s b1s gs bs mus vs W2s b2s (ix2 r j)
      = layer (cur2 h) (agg (cur2 h) (fun e => normWord (ei (ix2 0 e))) (fun e => ei (ix2 1 e)))
          (cur3 W1s ⟨l, hl⟩) (cur2 b1s ⟨l, hl⟩) (cur2 gs ⟨l, hl⟩) (cur2 bs ⟨l, hl⟩) (cur2 mus ⟨l, hl⟩) (cur2 vs ⟨l, hl⟩)
          (cur3 W2s ⟨l, hl⟩) (cur2 b2s ⟨l, hl⟩) r j := by
  unfold refLayerAt refHidden
  simp only [refRelu_apply, addf_apply, mulf_apply, subf_apply, refDot_apply, refStretch_apply, refRow_apply l hl,
    refScale_apply l hl, refAgg_apply, refSlab_apply l hl]
  rfl

theorem refLayer0_apply :
    refLayer0 (F := Ideal) h ei W1s b1s gs bs mus vs W2s b2s (ix2 r j)
      = layer (cur2 h) (agg (cur2 h) (fun e => normWord (ei (ix2 0 e))) (fun e => ei (ix2 1 e)))
          (cur3 W1s 0) (cur2 b1s 0) (cur2 gs 0) (cur2 bs 0) (cur2 mus 0) (cur2 vs 0) (cur3 W2s 0) (cur2 b2s 0) r j :=
  refLayerAt_apply 0 (by norm_num) ..

theorem refLayer1_apply :
    refLayer1 (F := Ideal) h ei W1s b1s gs bs mus vs W2s b2s (ix2 r j)
      = layer (cur2 h) (agg (cur2 h) (fun e => normWord (ei (ix2 0 e))) (fun e => ei (ix2 1 e)))
          (cur3 W1s 1) (cur2 b1s 1) (cur2 gs 1) (cur2 bs 1) (cur2 mus 1) (cur2 vs 1) (cur3 W2s 1) (cur2 b2s 1) r j :=
  refLayerAt_apply 1 (by norm_num) ..

theorem refLayer2_apply :
    refLayer2 (F := Ideal) h ei W1s b1s gs bs mus vs W2s b2s (ix2 r j)
      = layer (cur2 h) (agg (cur2 h) (fun e => normWord (ei (ix2 0 e))) (fun e => ei (ix2 1 e)))
          (cur3 W1s 2) (cur2 b1s 2) (cur2 gs 2) (cur2 bs 2) (cur2 mus 2) (cur2 vs 2) (cur3 W2s 2) (cur2 b2s 2) r j :=
  refLayerAt_apply 2 (by norm_num) ..

end Read

end Cert.ReferenceIdeal.Hand

end
-- ==== Proof.Ref.Head.lean ====
import proofs.«423486_j42142219108934_1_alg».proof.ReferenceIdeal
import proofs.«423486_j42142219108934_1_alg».proof.Proof.GinSpec
import proofs.«423486_j42142219108934_1_alg».proof.Proof.GinConsts
import proofs.«423486_j42142219108934_1_alg».proof.Proof.LibAgg
import Idealize.ShloMosaic.Lib.StackMember

noncomputable section

open scoped BigOperators

namespace Cert.ReferenceIdeal.Hand

open Cert.ReferenceIdeal Idealize.ShloMosaic Idealize.ShloMosaic.ValueIdx GinSpec

variable [Facts]
open Facts₀ Facts

section Term

variable {F : FTy → Type} [FloatOps F]

def refCounts (batch : IVec S100000 32) : FVec F S256 .f32 :=
  Host.scatterAdd scatter_S256_S100000x1_S100000_n_0_0_1
    (broadcastInDim S256 ![] bcast_S_S256 (constant (F := F) S_ .f32 0x00000000#32))
    (broadcastInDim S100000x1 ![0] bcast_S100000_S100000x1_0 batch)
    (broadcastInDim S100000 ![] bcast_S_S100000 (constant (F := F) S_ .f32 0x3F800000#32))

def refSums (h3 : FVec F S100000x128 .f32) (batch : IVec S100000 32) : FVec F S256x128 .f32 :=
  Host.scatterAdd scatter_S256x128_S100000x1_S100000x128_1_0_0_1
    (broadcastInDim S256x128 ![] bcast_S_S256x128 (constant (F := F) S_ .f32 0x00000000#32))
    (broadcastInDim S100000x1 ![0] bcast_S100000_S100000x1_0 batch)
    h3

def refColSpread (c : FVec F S256x1 .f32) : FVec F S256x128 .f32 :=
  broadcastInDim S256x128 ![0, 1] bcast_S256x1_S256x128_0_1 c

def refRowSpread (v : FVec F S128 .f32) : FVec F S256x128 .f32 :=
  broadcastInDim S256x128 ![0, 1] bcast_S1x128_S256x128_0_1 (broadcastInDim S1x128 ![1] bcast_S128_S1x128_1 v)

def refColConst (b : BitVec 32) : FVec F S256x1 .f32 :=
  broadcastInDim S256x1 ![] bcast_S_S256x1 (constant (F := F) S_ .f32 b)

def refRowSum (p : FVec F S256x128 .f32) : FVec F S256x1 .f32 :=
  broadcastInDim S256x1 ![0] bcast_S256_S256x1_0
    (Host.reduceAdd p (constant (F := F) S_ .f32 0x00000000#32) reducesTo_S256x128_S256_d1 h_S_)

def refPooled (h3 : FVec F S100000x128 .f32) (batch : IVec S100000 32) : FVec F S256x128 .f32 :=
  Host.divf (refSums h3 batch)
    (refColSpread (broadcastInDim S256x1 ![0] bcast_S256_S256x1_0
      (maximumf (refCounts (F := F) batch)
        (broadcastInDim S256 ![] bcast_S_S256 (constant (F := F) S_ .f32 0x3F800000#32)))))

def refProj (q : FVec F S256x128 .f32) (Wp : FVec F S128x128 .f32) (bp : FVec F S128 .f32) : FVec F S256x128 .f32 :=
  addf (Host.dotGeneral dot_S256x128_S128x128_S256x128_1_0_0_1_n_n none q Wp) (refRowSpread bp)

def refRowMean (p : FVec F S256x128 .f32) : FVec F S256x1 .f32 :=
  Host.divf (refRowSum p) (refColConst 0x43000000#32)

def refVarDiv : FVec F S_ .f32 :=
  subf (constant (F := F) S_ .f32 0x43000000#32) (sitofp .f32 (constantI S_ 32 0#32))

def refCentred (p : FVec F S256x128 .f32) : FVec F S256x128 .f32 :=
  subf p (refColSpread (refRowMean p))

def refVar (p : FVec F S256x128 .f32) : FVec F S256x1 .f32 :=
  select (broadcastInDim S256x1 ![] bcast_S_S256x1 (cmpf .ogt (refVarDiv (F := F)) (constant (F := F) S_ .f32 0x00000000#32)))
    (Host.divf (refRowSum (mulf (refCentred p) (refCentred p))) (broadcastInDim S256x1 ![] bcast_S_S256x1 (refVarDiv (F := F))))
    (refColConst 0x7FC00000#32)

def refNorm (p : FVec F S256x128 .f32) (gamma beta : FVec F S128 .f32) : FVec F S256x128 .f32 :=
  addf
    (mulf (mulf (refCentred p) (refColSpread (Host.rsqrt (addf (refVar p) (refColConst 0x3727C5AC#32)))))
      (refRowSpread gamma))
    (refRowSpread beta)

def refHead (h3 : FVec F S100000x128 .f32) (batch : IVec S100000 32) (Wp : FVec F S128x128 .f32)
    (bp gamma beta : FVec F S128 .f32) : FVec F S256x128 .f32 :=
  refNorm (refProj (refPooled h3 batch) Wp bp) gamma beta

end Term

theorem refColSpread_apply (c : FVec Ideal S256x1 .f32) (g : Fin 256) (j : Fin 128) :
    refColSpread c (ix2 g j) = c (ix2 g 0) :=
  broadcastInDim_apply _ _ c _ _ (fun ax => by
    match ax with
    | ⟨0, _⟩ => rfl
    | ⟨1, _⟩ => rfl)

theorem refRowSpread_apply (v : FVec Ideal S128 .f32) (g : Fin 256) (j : Fin 128) :
    refRowSpread v (ix2 g j) = v (ix1 j) :=
  (broadcastInDim_oneRow_apply _ _ g j).trans (vecAsRow_apply _ v 0 j)

theorem refColConst_apply (b : BitVec 32) (i : S256x1.Idx) : refColConst (F := Ideal) b i = Ideal.ofBits .f32 b :=
  broadcastInDim_scalar_apply _ _ i

theorem refCounts_apply (batch : IVec S100000 32) (g : Fin 256) :
    refCounts (F := Ideal) batch (ix1 g) = GinSpec.count (cur1 batch) g := by
  unfold refCounts
  rw [RowOps.hostScatterAdd_eq, RowOps.scatterAdd_vec_apply _ rfl rfl rfl rfl]
  rw [broadcastInDim_scalar_apply, constant_apply, Ideal.ofBits_zero_f32, zero_add]
  unfold GinSpec.count
  refine Finset.sum_congr rfl fun e _ => ?_
  rw [vecAsCol_apply, broadcastInDim_scalar_apply, constant_apply]
  rfl

theorem refSums_apply (h3 : FVec Ideal S100000x128 .f32) (batch : IVec S100000 32) (g : Fin 256) (j : Fin 128) :
    refSums (F := Ideal) h3 batch (ix2 g j) = pooledSum (cur2 h3) (cur1 batch) g j := by
  unfold refSums
  rw [RowOps.hostScatterAdd_eq, RowOps.scatterAdd_rows_apply _ rfl rfl rfl rfl]
  rw [broadcastInDim_scalar_apply, constant_apply, Ideal.ofBits_zero_f32, zero_add]
  unfold pooledSum
  refine Finset.sum_congr rfl fun e _ => ?_
  rw [vecAsCol_apply]
  rfl

theorem refPooled_eq (h3 : FVec Ideal S100000x128 .f32) (batch : IVec S100000 32) :
    cur2 (refPooled (F := Ideal) h3 batch) = pooledMean (cur2 h3) (cur1 batch) := by
  funext g j
  show refPooled h3 batch (ix2 g j) = _
  unfold refPooled
  rw [hostDivf_apply, refSums_apply, refColSpread_apply, vecAsCol_apply, maximumf_apply, refCounts_apply,
    broadcastInDim_scalar_apply, constant_apply]
  rfl

theorem refProj_eq (q : FVec Ideal S256x128 .f32) (Wp : FVec Ideal S128x128 .f32) (bp : FVec Ideal S128 .f32) :
    cur2 (refProj (F := Ideal) q Wp bp) = proj (cur2 q) (cur2 Wp) (cur1 bp) := by
  funext g j
  show refProj q Wp bp (ix2 g j) = _
  unfold refProj proj
  rw [addf_apply, refRowSpread_apply, show dot_S256x128_S128x128_S256x128_1_0_0_1_n_n = DotDims.plain 256 128 128 from rfl,
    StackMember.dotGeneral_plain_apply]
  rfl

theorem reduces_S256x128_S256_d1 : S256x128.Reduces [1] S256 := by decide

theorem lift_ix1 (g : Fin 256) (k : Fin 128) : reduces_S256x128_S256_d1.lift (ix1 g) k = ix2 g k :=
  funext fun a => Fin.ext <| match a with
    | ⟨0, _⟩ => rfl
    | ⟨1, _⟩ => rfl

-- A row sum kept as a column reads, at its row, the sum over the 128 columns.
theorem refRowSum_apply (p : FVec Ideal S256x128 .f32) (g : Fin 256) :
    refRowSum p (ix2 g 0) = ∑ k : Fin 128, p (ix2 g k) := by
  unfold refRowSum
  rw [vecAsCol_apply, hostReduceAdd_apply, Ideal.hostReduceAdd_single _ reduces_S256x128_S256_d1, constant_apply,
    Ideal.ofBits_zero_f32, zero_add]
  exact Finset.sum_congr rfl fun k _ => congrArg p (lift_ix1 g k)

theorem refRowMean_apply (p : FVec Ideal S256x128 .f32) (g : Fin 256) :
    refRowMean (F := Ideal) p (ix2 g 0) = rowMean (cur2 p) g := by
  unfold refRowMean
  rw [hostDivf_apply, refRowSum_apply, refColConst_apply]
  rfl

theorem refCentred_apply (p : FVec Ideal S256x128 .f32) (g : Fin 256) (j : Fin 128) :
    refCentred p (ix2 g j) = p (ix2 g j) - rowMean (cur2 p) g := by
  unfold refCentred
  rw [subf_apply, refColSpread_apply, refRowMean_apply]

-- The divisor of the mean squared deviation is 128: the correction word is zero.
theorem refVarDiv_apply (i : S_.Idx) : refVarDiv (F := Ideal) i = c128 := by
  unfold refVarDiv
  rw [subf_apply, constant_apply, sitofp_apply]
  show c128 - (((constantI S_ 32 0#32 i).toInt : ℝ) : EReal) = c128
  simp [constantI]

theorem refVar_apply (p : FVec Ideal S256x128 .f32) (g : Fin 256) :
    refVar (F := Ideal) p (ix2 g 0) = rowVar (cur2 p) g := by
  unfold refVar
  rw [select_apply, broadcastInDim_scalar_apply, cmpf_apply, refVarDiv_apply, constant_apply, Ideal.ofBits_zero_f32,
    Ideal.cmpf_def]
  have hc : Ideal.cmp .ogt c128 0 = 1#1 := by
    simp [Ideal.cmp, c128_pos]
  rw [hc, select_one, hostDivf_apply, refRowSum_apply, broadcastInDim_scalar_apply, refVarDiv_apply]
  unfold rowVar
  congr 1
  refine Finset.sum_congr rfl fun k _ => ?_
  rw [mulf_apply, refCentred_apply]
  rfl

theorem refNorm_apply (p : FVec Ideal S256x128 .f32) (gamma beta : FVec Ideal S128 .f32) (g : Fin 256) (j : Fin 128) :
    refNorm (F := Ideal) p gamma beta (ix2 g j) = layerNorm (cur2 p) (cur1 gamma) (cur1 beta) g j := by
  unfold refNorm
  rw [addf_apply, mulf_apply, mulf_apply, refCentred_apply, refColSpread_apply, refRowSpread_apply, refRowSpread_apply]
  show (p (ix2 g j) - rowMean (cur2 p) g) * Ideal.rsqrt (addf (refVar p) _ (ix2 g 0)) * gamma (ix1 j) + beta (ix1 j) = _
  rw [addf_apply, refVar_apply, refColConst_apply]
  rfl

theorem refHead_apply (h3 : FVec Ideal S100000x128 .f32) (batch : IVec S100000 32) (Wp : FVec Ideal S128x128 .f32)
    (bp gamma beta : FVec Ideal S128 .f32) (g : Fin 256) (j : Fin 128) :
    refHead (F := Ideal) h3 batch Wp bp gamma beta (ix2 g j)
      = GinSpec.head (cur2 h3) (cur1 batch) (cur2 Wp) (cur1 bp) (cur1 gamma) (cur1 beta) g j := by
  unfold refHead GinSpec.head
  rw [refNorm_apply, refProj_eq, refPooled_eq]

end Cert.ReferenceIdeal.Hand

end
-- ==== Proof.Ref.Stages.lean ====
import proofs.«423486_j42142219108934_1_alg».proof.Proof.Ref.Ops
import proofs.«423486_j42142219108934_1_alg».proof.Proof.Ref.Layer
import proofs.«423486_j42142219108934_1_alg».proof.Proof.Ref.Head

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- row 0 of the edge words as launched, flattened
abbrev row0 (V : Valuation τ sig (Elt F)) :=
  shapeCast S1600000 (extractStridedSlice S1x1600000 ![0, 0] (V main_arg1) slices_S2x1600000_S1x1600000_0_0) shapeCasts_S1x1600000_S1600000

theorem ops0_v1 (V : Valuation τ sig (Elt F)) : after ops0 V main_v1 = row0 V := by
  after_results_simp
  rfl

theorem ops0_v3 (V : Valuation τ sig (Elt F)) :
    after ops0 V main_v3
      = shapeCast S1600000 (extractStridedSlice S1x1600000 ![1, 0] (V main_arg1) slices_S2x1600000_S1x1600000_1_0) shapeCasts_S1x1600000_S1600000 := by
  after_results_simp
  rfl

theorem all_v55 (V : Valuation τ sig (Elt F)) : after opsAll V main_v55 = after ops0 V main_v55 := by
  rw [after_split, keep ops3_wr _ (by decide), keep ops2_wr _ (by decide), keep ops1_wr _ (by decide)]

theorem all_v107 (V : Valuation τ sig (Elt F)) :
    after opsAll V main_v107 = after ops1 (after ops0 V) main_v107 := by
  rw [after_split, keep ops3_wr _ (by decide), keep ops2_wr _ (by decide)]

theorem all_v159 (V : Valuation τ sig (Elt F)) :
    after opsAll V main_v159
      = after ops2 (after ops1 (after ops0 V)) main_v159 := by
  rw [after_split, keep ops3_wr _ (by decide)]

theorem after_h1 (V : Valuation τ sig (Elt F)) :
    after opsAll V main_v55
      = refLayer0 (V main_arg0) (V main_arg1) (V main_arg3) (V main_arg4) (V main_arg5) (V main_arg6) (V main_arg7)
          (V main_arg8) (V main_arg9) (V main_arg10) := by
  rw [all_v55]
  after_results_simp
  simp only [TRef.ofBuf, TRef.toBuf, cast_eq]
  rfl

-- a reference neither of the first two parts writes is, after them, as launched
theorem ops01_arg (V : Valuation τ sig (Elt F)) {r : Ref sig .tc} (h0 : (r.idx : ℕ) ∉ ops0_W) (h1 : (r.idx : ℕ) ∉ ops1_W) :
    after ops1 (after ops0 V) r = V r := by
  rw [keep ops1_wr _ h1, keep ops0_wr _ h0]

theorem after_h2 (V : Valuation τ sig (Elt F)) :
    after opsAll V main_v107
      = refLayer1 (after opsAll V main_v55) (V main_arg1) (V main_arg3) (V main_arg4) (V main_arg5)
          (V main_arg6) (V main_arg7) (V main_arg8) (V main_arg9) (V main_arg10) := by
  rw [all_v107, all_v55]
  have e1 := ops0_v1 V
  have e3 := ops0_v3 V
  have a3 := keep ops0_wr V (r := main_arg3) (by decide)
  have a4 := keep ops0_wr V (r := main_arg4) (by decide)
  have a5 := keep ops0_wr V (r := main_arg5) (by decide)
  have a6 := keep ops0_wr V (r := main_arg6) (by decide)
  have a7 := keep ops0_wr V (r := main_arg7) (by decide)
  have a8 := keep ops0_wr V (r := main_arg8) (by decide)
  have a9 := keep ops0_wr V (r := main_arg9) (by decide)
  have a10 := keep ops0_wr V (r := main_arg10) (by decide)
  generalize after ops0 V = W0 at *
  after_results_simp
  simp only [TRef.ofBuf, TRef.toBuf, cast_eq]
  rw [e1, e3, a3, a4, a5, a6, a7, a8, a9, a10]
  rfl

theorem ops01_v109 (V : Valuation τ sig (Elt F)) :
    after ops1 (after ops0 V) main_v109
      = cmpi .slt (row0 V) (broadcastInDim S1600000 ![] bcast_S_S1600000 (constantI S_ 32 0#32)) := by
  have e1 := ops0_v1 V
  generalize after ops0 V = W0 at *
  after_results_simp
  rw [e1]

theorem ops01_c7 (V : Valuation τ sig (Elt F)) :
    after ops1 (after ops0 V) main_c_7 = constantI S_ 32 100000#32 := by
  generalize after ops0 V = W0
  after_results_simp

theorem after_h3 (V : Valuation τ sig (Elt F)) :
    after opsAll V main_v159
      = refLayer2 (after opsAll V main_v107) (V main_arg1) (V main_arg3) (V main_arg4) (V main_arg5)
          (V main_arg6) (V main_arg7) (V main_arg8) (V main_arg9) (V main_arg10) := by
  rw [all_v159, all_v107]
  have e1 := (keep ops1_wr _ (r := main_v1) (by decide)).trans (ops0_v1 V)
  have e3 := (keep ops1_wr _ (r := main_v3) (by decide)).trans (ops0_v3 V)
  have e109 := ops01_v109 V
  have ec7 := ops01_c7 V
  have a3 := ops01_arg V (r := main_arg3) (by decide) (by decide)
  have a4 := ops01_arg V (r := main_arg4) (by decide) (by decide)
  have a5 := ops01_arg V (r := main_arg5) (by decide) (by decide)
  have a6 := ops01_arg V (r := main_arg6) (by decide) (by decide)
  have a7 := ops01_arg V (r := main_arg7) (by decide) (by decide)
  have a8 := ops01_arg V (r := main_arg8) (by decide) (by decide)
  have a9 := ops01_arg V (r := main_arg9) (by decide) (by decide)
  have a10 := ops01_arg V (r := main_arg10) (by decide) (by decide)
  generalize after ops1 (after ops0 V) = W1 at *
  after_results_simp
  simp only [TRef.ofBuf, TRef.toBuf, cast_eq]
  rw [e1, e3, e109, ec7, a3, a4, a5, a6, a7, a8, a9, a10]
  rfl

-- likewise for the first three parts
theorem ops012_arg (V : Valuation τ sig (Elt F)) {r : Ref sig .tc} (h0 : (r.idx : ℕ) ∉ ops0_W) (h1 : (r.idx : ℕ) ∉ ops1_W) (h2 : (r.idx : ℕ) ∉ ops2_W) :
    after ops2 (after ops1 (after ops0 V)) r = V r := by
  rw [keep ops2_wr _ h2, ops01_arg V h0 h1]

theorem ops012_v163 (V : Valuation τ sig (Elt F)) :
    after ops2 (after ops1 (after ops0 V)) main_v163 = refCounts (F := F) (V main_arg2) := by
  have a2 := ops01_arg V (r := main_arg2) (by decide) (by decide)
  generalize after ops1 (after ops0 V) = W1 at *
  after_results_simp
  rw [a2]
  rfl

theorem ops012_v164 (V : Valuation τ sig (Elt F)) :
    after ops2 (after ops1 (after ops0 V)) main_v164
      = broadcastInDim S256x128 ![] bcast_S_S256x128 (constant (F := F) S_ .f32 0x00000000#32) := by
  generalize after ops1 (after ops0 V) = W1
  after_results_simp

theorem after_out (V : Valuation τ sig (Elt F)) :
    after opsAll V main_v193
      = refHead (after opsAll V main_v159) (V main_arg2) (V main_arg11) (V main_arg12) (V main_arg13)
          (V main_arg14) := by
  rw [all_v159, after_split]
  have e163 := ops012_v163 V
  have e164 := ops012_v164 V
  have a2 := ops012_arg V (r := main_arg2) (by decide) (by decide) (by decide)
  have a11 := ops012_arg V (r := main_arg11) (by decide) (by decide) (by decide)
  have a12 := ops012_arg V (r := main_arg12) (by decide) (by decide) (by decide)
  have a13 := ops012_arg V (r := main_arg13) (by decide) (by decide) (by decide)
  have a14 := ops012_arg V (r := main_arg14) (by decide) (by decide) (by decide)
  generalize after ops2 (after ops1 (after ops0 V)) = W2 at *
  after_results_simp
  simp only [TRef.ofBuf, TRef.toBuf, cast_eq]
  rw [e163, e164, a2, a11, a12, a13, a14]
  rfl

end Cert.ReferenceIdeal.Hand
end
-- ==== Proof.Ref.Main.lean ====
import proofs.«423486_j42142219108934_1_alg».proof.Proof.Ref.Stages
import proofs.«423486_j42142219108934_1_alg».proof.Proof.Ref.Layer
import proofs.«423486_j42142219108934_1_alg».proof.Proof.Ref.Head
import proofs.«423486_j42142219108934_1_alg».proof.Proof.GinAssemble

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx GinSpec

-- the four stage equations are those of the encoder
theorem after_result (V : Valuation τ sig (Elt Ideal)) :
    after opsAll V main_v193
      = GinSpec.forwardArr (V main_arg0) (V main_arg1) (V main_arg2) (V main_arg3) (V main_arg4) (V main_arg5) (V main_arg6) (V main_arg7) (V main_arg8) (V main_arg9) (V main_arg10) (V main_arg11) (V main_arg12) (V main_arg13) (V main_arg14) := by
  refine GinSpec.forwardArr_of_stages _ _ _ _ _ _ _ _ _ _ _ _ _ _ _
    (after opsAll V main_v55) (after opsAll V main_v107)
    (after opsAll V main_v159) _ ?_ ?_ ?_ ?_
  · intro r k; rw [after_h1]; exact refLayer0_apply _ _ _ _ _ _ _ _ _ _ r k
  · intro r k; rw [after_h2]; exact refLayer1_apply _ _ _ _ _ _ _ _ _ _ r k
  · intro r k; rw [after_h3]; exact refLayer2_apply _ _ _ _ _ _ _ _ _ _ r k
  · intro g j; rw [after_out]; exact refHead_apply _ _ _ _ _ _ g j

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193)
        = GinSpec.forwardArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v193).trans (after_result _),
      (h c main_arg0).trans (keep opsAll_wr _ (by decide)),
      (h c main_arg1).trans (keep opsAll_wr _ (by decide)),
      (h c main_arg2).trans (keep opsAll_wr _ (by decide)),
      (h c main_arg3).trans (keep opsAll_wr _ (by decide)),
      (h c main_arg4).trans (keep opsAll_wr _ (by decide)),
      (h c main_arg5).trans (keep opsAll_wr _ (by decide)),
      (h c main_arg6).trans (keep opsAll_wr _ (by decide)),
      (h c main_arg7).trans (keep opsAll_wr _ (by decide)),
      (h c main_arg8).trans (keep opsAll_wr _ (by decide)),
      (h c main_arg9).trans (keep opsAll_wr _ (by decide)),
      (h c main_arg10).trans (keep opsAll_wr _ (by decide)),
      (h c main_arg11).trans (keep opsAll_wr _ (by decide)),
      (h c main_arg12).trans (keep opsAll_wr _ (by decide)),
      (h c main_arg13).trans (keep opsAll_wr _ (by decide)),
      (h c main_arg14).trans (keep opsAll_wr _ (by decide))⟩)
    (run_after m ρ)

end Cert.ReferenceIdeal.Hand

end
-- ==== Proof.lean ====
import proofs.«423486_j42142219108934_1_alg».proof.Defs
import proofs.«423486_j42142219108934_1_alg».proof.Proof.Gen.Kernel
import proofs.«423486_j42142219108934_1_alg».proof.Proof.Gen.KernelIdeal
import proofs.«423486_j42142219108934_1_alg».proof.Proof.Gen.ReferenceIdeal
import proofs.«423486_j42142219108934_1_alg».proof.Proof.Gen.Pre_finite_inputs
import proofs.«423486_j42142219108934_1_alg».proof.Proof.K.Main
import proofs.«423486_j42142219108934_1_alg».proof.Proof.KI.Value
import proofs.«423486_j42142219108934_1_alg».proof.Proof.Ref.Main
import Idealize.ShloMosaic.PureOps.IdealRules

noncomputable section

namespace Cert.Proof

open Idealize.ShloMosaic Idealize.SL.Sem

-- Over the extended reals both programs end at one function of the fifteen arguments: the three-layer graph encoder with mean pooling.
theorem algebraic : Cert.algebraic_KernelIdeal_ReferenceIdeal := by
  intro m ρ m' ρ' _ hagree
  refine ⟨_, Cert.KernelIdeal.Hand.run_value m ρ, (θ_run Cert.ReferenceIdeal.defs _ _).mono
    (fun _ h c => ⟨(h c).1.trans ?_, (h c).2⟩) (Cert.ReferenceIdeal.Hand.run m' ρ')⟩
  obtain ⟨e0, e1, e2, e3, e4, e5, e6, e7, e8, e9, e10, e11, e12, e13, e14⟩ := hagree c
  rw [e0, e1, e2, e3, e4, e5, e6, e7, e8, e9, e10, e11, e12, e13, e14]

-- A widening that undoes a narrowing is the identity on the extended reals; the reference's frame is its run.
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ,
    fun m ρ _ => (θ_run Cert.ReferenceIdeal.defs _ _).mono (fun _ h c => (h c).2) (Cert.ReferenceIdeal.Hand.run m ρ),
    IdealRules.truncf_extf.statement _ .f32 .bf16, algebraic⟩

end Cert.Proof

end
